-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S2x128 .f32) (main_arg16 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S2x128 .f32 := Host.absf main_arg15
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg16 main_v63 main_v67

def fn_part2 {F : FTy → Type} [FloatOps F] (main_arg9 : FVec F S128 .f32) (main_arg10 : FVec F S128x256 .f32) (main_arg11 : FVec F S128 .f32) (main_arg12 : FVec F S128 .f32) (main_arg13 : FVec F S128x128 .f32) (main_arg14 : FVec F S128 .f32) (main_arg15 : FVec F S2x128 .f32) (main_arg16 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S256 .f32) (main_arg7 : FVec F S256 .f32) (main_arg8 : FVec F S128x256 .f32) (main_arg9 : FVec F S128 .f32) (main_arg10 : FVec F S128x256 .f32) (main_arg11 : FVec F S128 .f32) (main_arg12 : FVec F S128 .f32) (main_arg13 : FVec F S128x128 .f32) (main_arg14 : FVec F S128 .f32) (main_arg15 : FVec F S2x128 .f32) (main_arg16 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S256x128 .f32) (main_arg4 : FVec F S256 .f32) (main_arg5 : FVec F S256x128 .f32) (main_arg6 : FVec F S256 .f32) (main_arg7 : FVec F S256 .f32) (main_arg8 : FVec F S128x256 .f32) (main_arg9 : FVec F S128 .f32) (main_arg10 : FVec F S128x256 .f32) (main_arg11 : FVec F S128 .f32) (main_arg12 : FVec F S128 .f32) (main_arg13 : FVec F S128x128 .f32) (main_arg14 : FVec F S128 .f32) (main_arg15 : FVec F S2x128 .f32) (main_arg16 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S10x1x256 : Shape := ⟨3, ![10, 1, 256]⟩
abbrev S5000x128 : Shape := ⟨2, ![5000, 128]⟩
abbrev S5000x256 : Shape := ⟨2, ![5000, 256]⟩
abbrev S1x1x256 : Shape := ⟨3, ![1, 1, 256]⟩
abbrev S800000x256 : Shape := ⟨2, ![800000, 256]⟩
abbrev S1x128 : Shape := ⟨2, ![1, 128]⟩
abbrev S10x1x128 : Shape := ⟨3, ![10, 1, 128]⟩
abbrev S1x1x128 : Shape := ⟨3, ![1, 1, 128]⟩
abbrev S1x64 : Shape := ⟨2, ![1, 64]⟩
abbrev S50000x64 : Shape := ⟨2, ![50000, 64]⟩
abbrev S10x64x128 : Shape := ⟨3, ![10, 64, 128]⟩
abbrev S5000x64 : Shape := ⟨2, ![5000, 64]⟩
abbrev S1x64x128 : Shape := ⟨3, ![1, 64, 128]⟩
abbrev S64x5000 : Shape := ⟨2, ![64, 5000]⟩
abbrev S64x128 : Shape := ⟨2, ![64, 128]⟩
abbrev S64 : Shape := ⟨1, ![64]⟩
abbrev S64x1 : Shape := ⟨2, ![64, 1]⟩
abbrev S128x2 : Shape := ⟨2, ![128, 2]⟩
abbrev S64x2 : Shape := ⟨2, ![64, 2]⟩
abbrev S1x2 : Shape := ⟨2, ![1, 2]⟩

abbrev nBuf : Space → Nat
  | .hbm => 146
  | .vmem => 44
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S256x128, .f32⟩
  | 4 => ⟨S256, .f32⟩
  | 5 => ⟨S256x128, .f32⟩
  | 6 => ⟨S256, .f32⟩
  | 7 => ⟨S256, .f32⟩
  | 8 => ⟨S128x256, .f32⟩
  | 9 => ⟨S128, .f32⟩
  | 10 => ⟨S128x256, .f32⟩
  | 11 => ⟨S128, .f32⟩
  | 12 => ⟨S128, .f32⟩
  | 13 => ⟨S128x128, .f32⟩
  | 14 => ⟨S128, .f32⟩
  | 15 => ⟨S2x128, .f32⟩
  | 16 => ⟨S2, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S128x256, .f32⟩
  | 34 => ⟨S128x256, .f32⟩
  | 35 => ⟨S256x128, .f32⟩
  | 36 => ⟨S256x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x1, .f32⟩
  | 51 => ⟨S50000x128, .f32⟩
  | 52 => ⟨S50000x128, .f32⟩
  | 53 => ⟨S1x256, .f32⟩
  | 54 => ⟨S50000x256, .f32⟩
  | 55 => ⟨S10x1x256, .f32⟩
  | 56 => ⟨S10x1x256, .f32⟩
  | 57 => ⟨S_, .f32⟩
  | 58 => ⟨S1x256, .f32⟩
  | 59 => ⟨S_, .f32⟩
  | 60 => ⟨S1x256, .f32⟩
  | 61 => ⟨S1x256, .f32⟩
  | 62 => ⟨S_, .f32⟩
  | 63 => ⟨S1x256, .f32⟩
  | 64 => ⟨S_, .f32⟩
  | 65 => ⟨S1x256, .f32⟩
  | 66 => ⟨S1x256, .f32⟩
  | 67 => ⟨S1x256, .f32⟩
  | 68 => ⟨S1x256, .f32⟩
  | 69 => ⟨S_, .f32⟩
  | 70 => ⟨S1x256, .f32⟩
  | 71 => ⟨S1x256, .f32⟩
  | 72 => ⟨S1x256, .f32⟩
  | 73 => ⟨S1x256, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S_, .f32⟩
  | 85 => ⟨S50000x256, .f32⟩
  | 86 => ⟨S800000x1, .i32⟩
  | 87 => ⟨S50000x256, .f32⟩
  | 88 => ⟨S50000x1, .f32⟩
  | 89 => ⟨S50000x256, .f32⟩
  | 90 => ⟨S50000x256, .f32⟩
  | 91 => ⟨S1x128, .f32⟩
  | 92 => ⟨S50000x128, .f32⟩
  | 93 => ⟨S10x1x128, .f32⟩
  | 94 => ⟨S10x1x128, .f32⟩
  | 95 => ⟨S_, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S50000x1, .i32⟩
  | 111 => ⟨S1x64, .i32⟩
  | 112 => ⟨S50000x64, .i32⟩
  | 113 => ⟨S50000x64, .i32⟩
  | 114 => ⟨S50000x64, .i1⟩
  | 115 => ⟨S50000x64, .bf16⟩
  | 116 => ⟨S1x128, .f32⟩
  | 117 => ⟨S1x128, .f32⟩
  | 118 => ⟨S10x64x128, .f32⟩
  | 119 => ⟨S_, .f32⟩
  | 120 => ⟨S64x128, .f32⟩
  | 121 => ⟨S_, .f32⟩
  | 122 => ⟨S50000, .f32⟩
  | 123 => ⟨S_, .f32⟩
  | 124 => ⟨S64, .f32⟩
  | 125 => ⟨S50000x1, .i32⟩
  | 126 => ⟨S64, .f32⟩
  | 127 => ⟨S_, .f32⟩
  | _ => ⟨S50000x128, .f32⟩

abbrev hbmTy0_1 (i : Nat) : BufTy := match i % 128 with
  | 0 => ⟨S64, .f32⟩
  | 1 => ⟨S64, .f32⟩
  | 2 => ⟨S64x1, .f32⟩
  | 3 => ⟨S64x128, .f32⟩
  | 4 => ⟨S64x128, .f32⟩
  | 5 => ⟨S128x128, .f32⟩
  | 6 => ⟨S64x128, .f32⟩
  | 7 => ⟨S1x128, .f32⟩
  | 8 => ⟨S64x128, .f32⟩
  | 9 => ⟨S64x128, .f32⟩
  | 10 => ⟨S_, .f32⟩
  | 11 => ⟨S64x128, .f32⟩
  | 12 => ⟨S64x128, .f32⟩
  | 13 => ⟨S128x2, .f32⟩
  | 14 => ⟨S64x2, .f32⟩
  | 15 => ⟨S1x2, .f32⟩
  | 16 => ⟨S64x2, .f32⟩
  | 17 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S5000x256, .f32⟩
  | .local _ .vmem, ⟨14, _⟩ => ⟨S5000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S256x128, .f32⟩
  | .local _ .vmem, ⟨26, _⟩ => ⟨S256x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x64, .bf16⟩
  | .local _ .vmem, ⟨41, _⟩ => ⟨S5000x64, .bf16⟩
  | .local _ .vmem, ⟨42, _⟩ => ⟨S1x64x128, .f32⟩
  | .local _ .vmem, ⟨43, _⟩ => ⟨S1x64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_v30_2 : Ref sig .tc := ⟨.hbm, 56, rfl⟩
abbrev main_cst_5 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_9 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_10 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58_0 : Ref sig .tc := ⟨.hbm, 92, rfl⟩
abbrev main_v58_1 : Ref sig .tc := ⟨.hbm, 93, rfl⟩
abbrev main_v58_2 : Ref sig .tc := ⟨.hbm, 94, rfl⟩
abbrev main_cst_13 : Ref sig .tc := ⟨.hbm, 95, rfl⟩
abbrev main_v59 : Ref sig .tc := ⟨.hbm, 96, rfl⟩
abbrev main_cst_14 : Ref sig .tc := ⟨.hbm, 97, rfl⟩
abbrev main_v60 : Ref sig .tc := ⟨.hbm, 98, rfl⟩
abbrev main_v61 : Ref sig .tc := ⟨.hbm, 99, rfl⟩
abbrev main_cst_15 : Ref sig .tc := ⟨.hbm, 100, rfl⟩
abbrev main_v62 : Ref sig .tc := ⟨.hbm, 101, rfl⟩
abbrev main_cst_16 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_v68 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_18 : Ref sig .tc := ⟨.hbm, 119, rfl⟩
abbrev main_v73 : Ref sig .tc := ⟨.hbm, 120, rfl⟩
abbrev main_cst_19 : Ref sig .tc := ⟨.hbm, 121, rfl⟩
abbrev main_v74 : Ref sig .tc := ⟨.hbm, 122, rfl⟩
abbrev main_cst_20 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_21 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_call1_cst : Ref sig .tc := ⟨.hbm, 138, rfl⟩
abbrev main_call1_v0 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x64x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S256x128_S128x256_1_0 : S256x128.Transposes [1, 0] S128x256
  transposes_S128x256_S256x128_1_0 : S128x256.Transposes [1, 0] S256x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reducesTo_S10x1x256_S1x256_d0 : S10x1x256.ReducesTo [0] S1x256
  h_S_ : 0 < S_.numel
  bcast_S_S1x256 : S_.BroadcastsInDim S1x256 (![] : Fin 0 → Fin S1x256.rank)
  shapeCasts_S5000x256_S5000x256 : S5000x256.ShapeCasts S5000x256
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S10x1x128_S1x128_d0 : S10x1x128.ReducesTo [0] S1x128
  bcast_S_S1x128 : S_.BroadcastsInDim S1x128 (![] : Fin 0 → Fin S1x128.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  transposes_S5000x64_p1_0_S64x5000 : S5000x64.Transposes [1, 0] S64x5000
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  reducesTo_S10x64x128_S64x128_d0 : S10x64x128.ReducesTo [0] S64x128
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S128x128_S128x128_1_0 : S128x128.Transposes [1, 0] S128x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  transposes_S2x128_S128x2_1_0 : S2x128.Transposes [1, 0] S128x2
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  dot_S64x5000_S5000x128_S64x128_1_0_0_1_n_n_wf : DotDims.WF S64x5000 S5000x128 S64x128 [1] [0] [0] [1] [] []
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S10x1x256.size a
  hwx0_6 : ∀ i : grid0.Coords, EltTy.bits .f32 = 32 ∨ (Rect.block (s := S10x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S10x1x256.size a
  hwx0_7 : ∀ i : grid0.Coords, EltTy.bits .f32 = 32 ∨ (Rect.block (s := S10x1x256) S1x1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S10x1x128.size a
  hwx2_6 : ∀ i : grid2.Coords, EltTy.bits .f32 = 32 ∨ (Rect.block (s := S10x1x128) S1x1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x128.size a ≤ S10x1x128.size a
  hwx2_7 : ∀ i : grid2.Coords, EltTy.bits .f32 = 32 ∨ (Rect.block (s := S10x1x128) S1x1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .bf16 = 32 ∨ (Rect.block (s := S50000x64) S5000x64.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x64x128.size a ≤ S10x64x128.size a
  hwx3_6 : ∀ i : grid3.Coords, EltTy.bits .f32 = 32 ∨ (Rect.block (s := S10x64x128) S1x64x128.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30_0) S5000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30_1) S1x1x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_2) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v58_1) S1x1x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v58_2) S1x1x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v58_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v72) S1x64x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S128x2 : Shape := ⟨2, ![128, 2]⟩
abbrev S64x2 : Shape := ⟨2, ![64, 2]⟩
abbrev S1x2 : Shape := ⟨2, ![1, 2]⟩

abbrev nBuf : Space → Nat
  | .hbm => 210
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S256x128, .f32⟩
  | 4 => ⟨S256, .f32⟩
  | 5 => ⟨S256x128, .f32⟩
  | 6 => ⟨S256, .f32⟩
  | 7 => ⟨S256, .f32⟩
  | 8 => ⟨S128x256, .f32⟩
  | 9 => ⟨S128, .f32⟩
  | 10 => ⟨S128x256, .f32⟩
  | 11 => ⟨S128, .f32⟩
  | 12 => ⟨S128, .f32⟩
  | 13 => ⟨S128x128, .f32⟩
  | 14 => ⟨S128, .f32⟩
  | 15 => ⟨S2x128, .f32⟩
  | 16 => ⟨S2, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000x128, .f32⟩
  | 38 => ⟨S800000x1, .i32⟩
  | 39 => ⟨S50000x128, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S128x256, .f32⟩
  | 47 => ⟨S50000x256, .f32⟩
  | 48 => ⟨S1x256, .f32⟩
  | 49 => ⟨S50000x256, .f32⟩
  | 50 => ⟨S50000x256, .f32⟩
  | 51 => ⟨S128x256, .f32⟩
  | 52 => ⟨S50000x256, .f32⟩
  | 53 => ⟨S50000x256, .f32⟩
  | 54 => ⟨S_, .f32⟩
  | 55 => ⟨S256, .f32⟩
  | 56 => ⟨S_, .f32⟩
  | 57 => ⟨S256, .f32⟩
  | 58 => ⟨S256, .f32⟩
  | 59 => ⟨S_, .i32⟩
  | 60 => ⟨S_, .f32⟩
  | 61 => ⟨S256, .f32⟩
  | 62 => ⟨S1x256, .f32⟩
  | 63 => ⟨S_, .f32⟩
  | 64 => ⟨S1x256, .f32⟩
  | 65 => ⟨S1x256, .f32⟩
  | 66 => ⟨S50000x256, .f32⟩
  | 67 => ⟨S50000x256, .f32⟩
  | 68 => ⟨S50000x256, .f32⟩
  | 69 => ⟨S_, .f32⟩
  | 70 => ⟨S_, .f32⟩
  | 71 => ⟨S_, .f32⟩
  | 72 => ⟨S_, .f32⟩
  | 73 => ⟨S256, .f32⟩
  | 74 => ⟨S256, .f32⟩
  | 75 => ⟨S256, .f32⟩
  | 76 => ⟨S_, .f32⟩
  | 77 => ⟨S_, .i1⟩
  | 78 => ⟨S_, .f32⟩
  | 79 => ⟨S_, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S_, .f32⟩
  | 86 => ⟨S256, .f32⟩
  | 87 => ⟨S256, .f32⟩
  | 88 => ⟨S256, .f32⟩
  | 89 => ⟨S1x256, .f32⟩
  | 90 => ⟨S50000x256, .f32⟩
  | 91 => ⟨S50000x256, .f32⟩
  | 92 => ⟨S1x256, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x256, .f32⟩
  | 110 => ⟨S_, .f32⟩
  | 111 => ⟨S800000, .f32⟩
  | 112 => ⟨S_, .f32⟩
  | 113 => ⟨S50000, .f32⟩
  | 114 => ⟨S800000x1, .i32⟩
  | 115 => ⟨S50000, .f32⟩
  | 116 => ⟨S_, .f32⟩
  | 117 => ⟨S50000x256, .f32⟩
  | 118 => ⟨S800000x1, .i32⟩
  | 119 => ⟨S50000x256, .f32⟩
  | 120 => ⟨S_, .f32⟩
  | 121 => ⟨S50000, .f32⟩
  | 122 => ⟨S50000, .f32⟩
  | 123 => ⟨S50000x1, .f32⟩
  | 124 => ⟨S50000x256, .f32⟩
  | 125 => ⟨S50000x256, .f32⟩
  | 126 => ⟨S256x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S256x128, .f32⟩
  | 4 => ⟨S50000x128, .f32⟩
  | 5 => ⟨S50000x128, .f32⟩
  | 6 => ⟨S_, .f32⟩
  | 7 => ⟨S128, .f32⟩
  | 8 => ⟨S_, .f32⟩
  | 9 => ⟨S128, .f32⟩
  | 10 => ⟨S128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S50000x128, .f32⟩
  | 19 => ⟨S50000x128, .f32⟩
  | 20 => ⟨S50000x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S50000, .f32⟩
  | 55 => ⟨S_, .f32⟩
  | 56 => ⟨S64, .f32⟩
  | 57 => ⟨S50000x1, .i32⟩
  | 58 => ⟨S64, .f32⟩
  | 59 => ⟨S_, .f32⟩
  | 60 => ⟨S64x128, .f32⟩
  | 61 => ⟨S50000x1, .i32⟩
  | 62 => ⟨S64x128, .f32⟩
  | 63 => ⟨S_, .f32⟩
  | 64 => ⟨S64, .f32⟩
  | 65 => ⟨S64, .f32⟩
  | 66 => ⟨S64x1, .f32⟩
  | 67 => ⟨S64x128, .f32⟩
  | 68 => ⟨S64x128, .f32⟩
  | 69 => ⟨S128x128, .f32⟩
  | 70 => ⟨S64x128, .f32⟩
  | 71 => ⟨S1x128, .f32⟩
  | 72 => ⟨S64x128, .f32⟩
  | 73 => ⟨S64x128, .f32⟩
  | 74 => ⟨S_, .f32⟩
  | 75 => ⟨S64x128, .f32⟩
  | 76 => ⟨S64x128, .f32⟩
  | 77 => ⟨S128x2, .f32⟩
  | 78 => ⟨S64x2, .f32⟩
  | 79 => ⟨S1x2, .f32⟩
  | 80 => ⟨S64x2, .f32⟩
  | 81 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_cst_3 : Ref sig .tc := ⟨.hbm, 76, rfl⟩
abbrev main_call0_v12 : Ref sig .tc := ⟨.hbm, 77, rfl⟩
abbrev main_call0_cst_4 : Ref sig .tc := ⟨.hbm, 78, rfl⟩
abbrev main_call0_call0_v0 : Ref sig .tc := ⟨.hbm, 79, rfl⟩
abbrev main_call0_call0_v1 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_7 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_call1_cst : Ref sig .tc := ⟨.hbm, 98, rfl⟩
abbrev main_call1_v0 : Ref sig .tc := ⟨.hbm, 99, rfl⟩
abbrev main_v50 : Ref sig .tc := ⟨.hbm, 100, rfl⟩
abbrev main_c_8 : Ref sig .tc := ⟨.hbm, 101, rfl⟩
abbrev main_v51 : Ref sig .tc := ⟨.hbm, 102, rfl⟩
abbrev main_v52 : Ref sig .tc := ⟨.hbm, 103, rfl⟩
abbrev main_c_9 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_10 : Ref sig .tc := ⟨.hbm, 110, rfl⟩
abbrev main_v58 : Ref sig .tc := ⟨.hbm, 111, rfl⟩
abbrev main_cst_11 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_12 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_13 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_14 : Ref sig .tc := ⟨.hbm, 134, rfl⟩
abbrev main_v78 : Ref sig .tc := ⟨.hbm, 135, rfl⟩
abbrev main_cst_15 : Ref sig .tc := ⟨.hbm, 136, rfl⟩
abbrev main_v79 : Ref sig .tc := ⟨.hbm, 137, rfl⟩
abbrev main_v80 : Ref sig .tc := ⟨.hbm, 138, rfl⟩
abbrev main_c_16 : Ref sig .tc := ⟨.hbm, 139, rfl⟩
abbrev main_call2_cst : Ref sig .tc := ⟨.hbm, 140, rfl⟩
abbrev main_call2_v0 : Ref sig .tc := ⟨.hbm, 141, rfl⟩
abbrev main_call2_v1 : Ref sig .tc := ⟨.hbm, 142, rfl⟩
abbrev main_call2_cst_0 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_v6 : Ref sig .tc := ⟨.hbm, 148, rfl⟩
abbrev main_call2_v7 : Ref sig .tc := ⟨.hbm, 149, rfl⟩
abbrev main_call2_cst_1 : Ref sig .tc := ⟨.hbm, 150, rfl⟩
abbrev main_call2_v8 : Ref sig .tc := ⟨.hbm, 151, rfl⟩
abbrev main_call2_cst_2 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_cst_3 : Ref sig .tc := ⟨.hbm, 156, rfl⟩
abbrev main_call2_v12 : Ref sig .tc := ⟨.hbm, 157, rfl⟩
abbrev main_call2_cst_4 : Ref sig .tc := ⟨.hbm, 158, rfl⟩
abbrev main_call2_call0_v0 : Ref sig .tc := ⟨.hbm, 159, rfl⟩
abbrev main_call2_call0_v1 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_cst_17 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_call3_cst : Ref sig .tc := ⟨.hbm, 178, rfl⟩
abbrev main_call3_v0 : Ref sig .tc := ⟨.hbm, 179, rfl⟩
abbrev main_v97 : Ref sig .tc := ⟨.hbm, 180, rfl⟩
abbrev main_cst_18 : Ref sig .tc := ⟨.hbm, 181, rfl⟩
abbrev main_v98 : Ref sig .tc := ⟨.hbm, 182, rfl⟩
abbrev main_cst_19 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_cst_20 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_cst_21 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_call4_cst : Ref sig .tc := ⟨.hbm, 202, rfl⟩
abbrev main_call4_v0 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S128x128_S128x128_1_0 : S128x128.Transposes [1, 0] S128x128
  bcast_S1x128_S64x128_0_1 : S1x128.BroadcastsInDim S64x128 (![0, 1] : Fin 2 → Fin S64x128.rank)
  transposes_S2x128_S128x2_1_0 : S2x128.Transposes [1, 0] S128x2
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S50000x128_S800000x1_S800000x128_1_0_n_n_0_1_1128_wf : GatherDims.WF S50000x128 S800000x1 S800000x128 [1] [0] [] [0] [] 1 ![1, 128]
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KTerms.lean ====
import Idealize.ShloMosaic.PureOps.Ideal
import Idealize.ShloMosaic.Lib.ValueIdx

noncomputable section

namespace Cert.KT

open Idealize.ShloMosaic Idealize.ShloMosaic.ValueIdx

abbrev A2 (n0 n1 : Nat) : Type := (⟨2, ![n0, n1]⟩ : Shape).Idx → EReal

abbrev A3 (n0 n1 n2 : Nat) : Type := (⟨3, ![n0, n1, n2]⟩ : Shape).Idx → EReal

def row (t : Fin 10) (p : Fin 5000) : Fin 50000 := ⟨5000 * t.val + p.val, by omega⟩

def eps : EReal := Ideal.ofBits .f32 0x3727C5AC#32

def lin0At (a x : A2 50000 128) (wlT wrT : A2 128 256) (b : A2 1 256) (n : Fin 50000) (o : Fin 256) : EReal :=
  ((∑ k : Fin 128, a (ix2 n k) * wlT (ix2 k o)) + ∑ k : Fin 128, x (ix2 n k) * wrT (ix2 k o)) + b (ix2 (0 : Fin 1) o)
def lin0 (a x : A2 50000 128) (wlT wrT : A2 128 256) (b : A2 1 256) : A2 50000 256 :=
  fun i => lin0At a x wlT wrT b (i 0) (i 1)

def lin1At (a x : A2 50000 256) (wlT wrT : A2 256 128) (b : A2 1 128) (n : Fin 50000) (o : Fin 128) : EReal :=
  ((∑ k : Fin 256, a (ix2 n k) * wlT (ix2 k o)) + ∑ k : Fin 256, x (ix2 n k) * wrT (ix2 k o)) + b (ix2 (0 : Fin 1) o)
def lin1 (a x : A2 50000 256) (wlT wrT : A2 256 128) (b : A2 1 128) : A2 50000 128 :=
  fun i => lin1At a x wlT wrT b (i 0) (i 1)

def bsumAt {O : Nat} (h : A2 50000 O) (t : Fin 10) (o : Fin O) : EReal := ∑ p : Fin 5000, h (ix2 (row t p) o)

def bsumsqAt {O : Nat} (h : A2 50000 O) (t : Fin 10) (o : Fin O) : EReal :=
  ∑ p : Fin 5000, h (ix2 (row t p) o) * h (ix2 (row t p) o)
def bsum256 (h : A2 50000 256) : A3 10 1 256 := fun i => bsumAt h (i 0) (i 2)
def bsumsq256 (h : A2 50000 256) : A3 10 1 256 := fun i => bsumsqAt h (i 0) (i 2)
def bsum128 (h : A2 50000 128) : A3 10 1 128 := fun i => bsumAt h (i 0) (i 2)
def bsumsq128 (h : A2 50000 128) : A3 10 1 128 := fun i => bsumsqAt h (i 0) (i 2)

def bnreluAt {O : Nat} (h : A2 50000 O) (mean var w b : A2 1 O) (n : Fin 50000) (o : Fin O) : EReal :=
  max ((((h (ix2 n o) - mean (ix2 (0 : Fin 1) o)) * Ideal.rsqrt (var (ix2 (0 : Fin 1) o) + eps)) * w (ix2 (0 : Fin 1) o))
        + b (ix2 (0 : Fin 1) o)) (Ideal.ofBits .f32 0x00000000#32)
def bnrelu256 (h : A2 50000 256) (mean var w b : A2 1 256) : A2 50000 256 :=
  fun i => bnreluAt h mean var w b (i 0) (i 1)
def bnrelu128 (h : A2 50000 128) (mean var w b : A2 1 128) : A2 50000 128 :=
  fun i => bnreluAt h mean var w b (i 0) (i 1)

def poolAt (h : A2 50000 128) (mean var w b : A2 1 128) (oh : A2 50000 64) (t : Fin 10) (g : Fin 64) (d : Fin 128) : EReal :=
  ∑ p : Fin 5000, oh (ix2 (row t p) g) * bnreluAt h mean var w b (row t p) d
def pool (h : A2 50000 128) (mean var w b : A2 1 128) (oh : A2 50000 64) : A3 10 64 128 :=
  fun i => poolAt h mean var w b oh (i 0) (i 1) (i 2)

end Cert.KT

end
-- ==== Proof.KChainA.lean ====
import proofs.«408482_j65996467470993_2_alg».proof.Proof.Gen.KernelIdeal
import proofs.«408482_j65996467470993_2_alg».proof.Proof.KTerms

noncomputable section

namespace Cert.KernelIdeal.KC

open Idealize.ShloMosaic
open Cert.KernelIdeal Cert.KernelIdeal.Gen

def src1 (ei : IVec S2x800000 32) : IVec S800000 32 :=
  shapeCast S800000 (extractStridedSlice S1x800000 ![0, 0] ei slices_S2x800000_S1x800000_0_0) shapeCasts_S1x800000_S800000

def dst1 (ei : IVec S2x800000 32) : IVec S800000 32 :=
  shapeCast S800000 (extractStridedSlice S1x800000 ![1, 0] ei slices_S2x800000_S1x800000_1_0) shapeCasts_S1x800000_S800000

def invdeg (d1 : IVec S800000 32) : FVec Ideal S50000 .f32 :=
  Host.divf
    (broadcastInDim S50000 ![] bcast_S_S50000 (constant (F := Ideal) S_ .f32 0x3F800000#32))
    (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 d1)
        (broadcastInDim S800000 ![] bcast_S_S800000 (constant (F := Ideal) S_ .f32 0x3F800000#32)))
      (broadcastInDim S50000 ![] bcast_S_S50000 (constant (F := Ideal) S_ .f32 0x3F800000#32)))

def wrapSrc (s1 : IVec S800000 32) : IVec S800000 32 :=
  select (cmpi .slt s1 (broadcastInDim S800000 ![] bcast_S_S800000 (constantI S_ 32 0#32)))
    (addi s1 (broadcastInDim S800000 ![] bcast_S_S800000 (constantI S_ 32 50000#32)))
    s1

def aggOf128 (feat : FVec Ideal S50000x128 .f32) (s1 d1 : IVec S800000 32) (inv : FVec Ideal S50000 .f32) :
    FVec Ideal S50000x128 .f32 :=
  mulf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 d1)
      (Host.gather gather_S50000x128_S800000x1_S800000x128_1_0_n_n_0_1_1128 feat
        (broadcastInDim S800000x1 ![0] bcast_S800000_S800000x1_0 (wrapSrc s1))))
    (broadcastInDim S50000x128 ![0, 1] bcast_S50000x1_S50000x128_0_1
      (broadcastInDim S50000x1 ![0] bcast_S50000_S50000x1_0 inv))

def hpre0 (a x : FVec Ideal S50000x128 .f32) (wl : FVec Ideal S256x128 .f32) (bl : FVec Ideal S256 .f32)
    (wr : FVec Ideal S256x128 .f32) : FVec Ideal S50000x256 .f32 :=
  KT.lin0 a x
    (transpose S128x256 [1, 0] wl transposes_S256x128_S128x256_1_0)
    (transpose S128x256 [1, 0] wr transposes_S256x128_S128x256_1_0)
    (shapeCast S1x256 bl shapeCasts_S256_S1x256)

def meanOf (s : FVec Ideal S10x1x256 .f32) : FVec Ideal S1x256 .f32 :=
  Host.divf
    (Host.reduceAdd s (constant (F := Ideal) S_ .f32 0x00000000#32) reducesTo_S10x1x256_S1x256_d0 h_S_)
    (broadcastInDim S1x256 ![] bcast_S_S1x256 (constant (F := Ideal) S_ .f32 0x47435000#32))

def varOf (mu : FVec Ideal S1x256 .f32) (q : FVec Ideal S10x1x256 .f32) : FVec Ideal S1x256 .f32 :=
  maximumf
    (subf
      (Host.divf
        (Host.reduceAdd q (constant (F := Ideal) S_ .f32 0x00000000#32) reducesTo_S10x1x256_S1x256_d0 h_S_)
        (broadcastInDim S1x256 ![] bcast_S_S1x256 (constant (F := Ideal) S_ .f32 0x47435000#32)))
      (mulf mu mu))
    (broadcastInDim S1x256 ![] bcast_S_S1x256 (constant (F := Ideal) S_ .f32 0x00000000#32))

def mean0 (h : FVec Ideal S50000x256 .f32) : FVec Ideal S1x256 .f32 :=
  meanOf (KT.bsum256 h)

def var0 (h : FVec Ideal S50000x256 .f32) : FVec Ideal S1x256 .f32 :=
  varOf (mean0 h) (KT.bsumsq256 h)

def act0 (h : FVec Ideal S50000x256 .f32) (w b : FVec Ideal S256 .f32) : FVec Ideal S50000x256 .f32 :=
  KT.bnrelu256 h (mean0 h) (var0 h) (shapeCast S1x256 w shapeCasts_S256_S1x256) (shapeCast S1x256 b shapeCasts_S256_S1x256)

end Cert.KernelIdeal.KC

end
-- ==== Proof.KRegLin.lean ====
import proofs.«408482_j65996467470993_2_alg».proof.Proof.KTerms
import Idealize.ShloMosaic.Lib.ValueLayout
import Idealize.ShloMosaic.Lib.StackMember

noncomputable section

namespace Cert.KLin

open Idealize.ShloMosaic Idealize.ShloMosaic.ValueIdx

variable {M K N : Nat}

/-- A rows-by-columns product into the zero accumulator is the host's product: the sum over the contracted coordinate. -/
theorem mm_apply (A : FVec Ideal ⟨2, ![M, K]⟩ .bf16) (B : FVec Ideal ⟨2, ![K, N]⟩ .bf16) (p : Fin M) (o : Fin N) :
    matmul (DotDims.plain M K N) none A B (constant (F := Ideal) ⟨2, ![M, N]⟩ .f32 0x00000000#32) (ix2 p o)
      = ∑ k : Fin K, A (ix2 p k) * B (ix2 k o) := by
  rw [matmul_zero_eq_dotGeneral, StackMember.dotGeneral_plain_apply]

/-- Two such products added, plus a row broadcast down the rows, over what the five operands are known to hold. -/
theorem lin_apply {R : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩) (hlt : FTy.bits .bf16 < FTy.bits .f32)
    (x0 x1 : FVec Ideal ⟨2, ![M, K]⟩ .f32) (x2 x3 : FVec Ideal ⟨2, ![K, N]⟩ .f32) (x4 : FVec Ideal ⟨2, ![1, N]⟩ .f32)
    (a x : KT.A2 R K) (wl wr : KT.A2 K N) (b : KT.A2 1 N) (r : Fin M → Fin R)
    (h0 : ∀ p k, x0 (ix2 p k) = a (ix2 (r p) k)) (h1 : ∀ p k, x1 (ix2 p k) = x (ix2 (r p) k))
    (h2 : ∀ k o, x2 (ix2 k o) = wl (ix2 k o)) (h3 : ∀ k o, x3 (ix2 k o) = wr (ix2 k o))
    (h4 : ∀ o, x4 (ix2 (0 : Fin 1) o) = b (ix2 (0 : Fin 1) o)) (p : Fin M) (o : Fin N) :
    addf (addf (matmul d none (truncf .bf16 x0 hlt) (truncf .bf16 x2 hlt) (constant _ .f32 0x00000000#32))
          (matmul d none (truncf .bf16 x1 hlt) (truncf .bf16 x3 hlt) (constant _ .f32 0x00000000#32)))
        (broadcastTo ⟨2, ![M, N]⟩ x4 hb) (ix2 p o)
      = ((∑ k : Fin K, a (ix2 (r p) k) * wl (ix2 k o)) + ∑ k : Fin K, x (ix2 (r p) k) * wr (ix2 k o))
          + b (ix2 (0 : Fin 1) o) := by
  subst hd
  rw [addf_apply, addf_apply, mm_apply, mm_apply, broadcastTo_1b_ab_apply, h4]
  simp only [truncf_apply, h0, h1, h2, h3]

/-- Summing a rank-2 array down its rows, then putting two unit axes in front, leaves the column sums. -/
theorem colsum_apply (hr : (⟨2, ![M, N]⟩ : Shape).Reduces [0] ⟨1, ![N]⟩)
    (h1 : (⟨1, ![N]⟩ : Shape).ShapeCasts ⟨2, ![1, N]⟩) (h2 : (⟨2, ![1, N]⟩ : Shape).ShapeCasts ⟨3, ![1, 1, N]⟩)
    (src : FVec Ideal ⟨2, ![M, N]⟩ .f32) (o : Fin N) :
    shapeCast ⟨3, ![1, 1, N]⟩ (shapeCast ⟨2, ![1, N]⟩
        (multiReduction (F := Ideal) .add [0] ⟨1, ![N]⟩ src 0x00000000#32 hr (.inl rfl) rfl) h1) h2
        (ix3 (0 : Fin 1) (0 : Fin 1) o) = ∑ p : Fin M, src (ix2 p o) := by
  rw [shapeCast_ab_1ab_apply, shapeCast_a_1a_apply]
  refine (Ideal.multiReduction_add_single src 0x00000000#32 hr (.inl rfl) rfl (ix1 o)).trans ?_
  refine Finset.sum_congr rfl fun p _ => congrArg src ?_
  funext a; apply Fin.ext
  match a with
  | ⟨0, _⟩ => rfl
  | ⟨1, _⟩ => rfl

theorem hz2 : (![0, 0] : Fin 2 → Nat) = fun _ => 0 := funext fun a => by fin_cases a <;> rfl
theorem hz3 : (![0, 0, 0] : Fin 3 → Nat) = fun _ => 0 := funext fun a => by fin_cases a <;> rfl

/-- An index is named by its coordinates. -/
theorem eq_ix2_of_val {n0 n1 : Nat} (i : (⟨2, ![n0, n1]⟩ : Shape).Idx) (a : Fin n0) (b : Fin n1)
    (h0 : (i 0).val = a.val) (h1 : (i 1).val = b.val) : i = ix2 a b :=
  (eq_ix2 i).trans (congrArg₂ ix2 (Fin.ext h0) (Fin.ext h1))

theorem eq_ix3_of_val {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  obtain rfl : i 0 = a := Fin.ext h0
  obtain rfl : i 1 = b := Fin.ext h1
  obtain rfl : i 2 = c := Fin.ext h2
  exact eq_ix3 i

theorem eq_ix3_11 {n : Nat} (j : (⟨3, ![1, 1, n]⟩ : Shape).Idx) : j = ix3 (0 : Fin 1) (0 : Fin 1) (j 2) :=
  eq_ix3_of_val j _ _ _ (by have : (j 0).val < 1 := (j 0).isLt; show (j 0).val = 0; omega)
    (by have : (j 1).val < 1 := (j 1).isLt; show (j 1).val = 0; omega) rfl

/-- A row lies in the block of `b` full-width rows that starts at its own multiple of `b`. -/
theorem mem_rows2 {n0 n1 b : Nat} {off : Fin 2 → Nat} {inb} (i : (⟨2, ![n0, n1]⟩ : Shape).Idx) (hb : 0 < b)
    (h0 : off 0 = (i 0).val / b * b) (h1 : off 1 = 0) :
    i ∈ (Rect.unit (s := ⟨2, ![n0, n1]⟩) off ![b, n1] inb).set := by
  have := idx2_lt1 i
  have := Nat.div_add_mod (i 0).val b
  have := Nat.mod_lt (i 0).val hb
  refine Rect.mem_set_unit.mpr (Fin.forall_fin_two.mpr ⟨?_, ?_⟩)
  · show off 0 ≤ (i 0).val ∧ (i 0).val < off 0 + b
    rw [h0, Nat.mul_comm]; omega
  · show off 1 ≤ (i 1).val ∧ (i 1).val < off 1 + n1
    omega

/-- An index of an `[n0, 1, n2]` array lies in the one-row block its leading coordinate names. -/
theorem mem_lead3 {n0 n2 : Nat} {off : Fin 3 → Nat} {inb} (i : (⟨3, ![n0, 1, n2]⟩ : Shape).Idx)
    (h0 : off 0 = (i 0).val) (h1 : off 1 = 0) (h2 : off 2 = 0) :
    i ∈ (Rect.unit (s := ⟨3, ![n0, 1, n2]⟩) off ![1, 1, n2] inb).set := by
  have : (i 1).val < 1 := (i 1).isLt
  have : (i 2).val < n2 := (i 2).isLt
  refine Rect.mem_set_unit.mpr fun a => ?_
  match a with
  | ⟨0, _⟩ => show off 0 ≤ (i 0).val ∧ (i 0).val < off 0 + 1; omega
  | ⟨1, _⟩ => show off 1 ≤ (i 1).val ∧ (i 1).val < off 1 + 1; omega
  | ⟨2, _⟩ => show off 2 ≤ (i 2).val ∧ (i 2).val < off 2 + n2; omega

end Cert.KLin

end
-- ==== Proof.KReg0.lean ====
import proofs.«408482_j65996467470993_2_alg».proof.Proof.Gen.KernelIdeal.Frame
import proofs.«408482_j65996467470993_2_alg».proof.Proof.KRegLin

noncomputable section

namespace Cert.KernelIdeal.KReg

open Idealize.ShloMosaic Idealize.ShloMosaic.TcCoe Idealize.SL.Sem
open Cert.KernelIdeal Cert.KernelIdeal.Gen
open Idealize.ShloMosaic.ValueIdx

theorem reg0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

def reg0_blockOf (t : Fin cfg0.N) : Fin 10 := ⟨t.val, lt_of_lt_of_eq t.isLt N_0⟩

variable (V : (c : Dev nD) → (b : Ref sig .tc) → Buf (Elt Ideal) ((c : Thread nD τ).loc b))

abbrev reg0_H (c : Dev nD) : KT.A2 50000 256 :=
  KT.lin0 (V c main_v28) (V c main_arg0) (V c main_v12) (V c main_v13) (V c main_v29)

/-- The two row-blocked operands' blocks, read at an index, are their arrays at the block's own rows. -/
theorem reg0_reads_rows (c : Dev nD) (t : Fin cfg0.N) :
    (∀ p k, iblk0 (F := Ideal) V c 0 t (ix2 p k) = (V c main_v28 : KT.A2 50000 128) (ix2 (KT.row (reg0_blockOf t) p) k))
    ∧ ∀ p k, iblk0 (F := Ideal) V c 1 t (ix2 p k) = (V c main_arg0 : KT.A2 50000 128) (ix2 (KT.row (reg0_blockOf t) p) k) := by
  obtain ⟨a0, a1, b0, b1, -⟩ := reg0_idx t
  unfold iblk0
  simp only [View.read_apply]
  refine ⟨fun p k => ?_, fun p k => ?_⟩
  · show V c main_v28 _ = V c main_v28 _
    refine congrArg _ (KLin.eq_ix2_of_val _ _ _ ?_ ?_)
    · show win0_0.index t (0 : Fin 2) * 5000 + 1 * p.val = 5000 * t.val + p.val; rw [a0]; omega
    · show win0_0.index t (1 : Fin 2) * 128 + 1 * k.val = k.val; rw [a1]; omega
  · show V c main_arg0 _ = V c main_arg0 _
    refine congrArg _ (KLin.eq_ix2_of_val _ _ _ ?_ ?_)
    · show win0_1.index t (0 : Fin 2) * 5000 + 1 * p.val = 5000 * t.val + p.val; rw [b0]; omega
    · show win0_1.index t (1 : Fin 2) * 128 + 1 * k.val = k.val; rw [b1]; omega

/-- The weights' and the bias's blocks are their whole arrays. -/
theorem reg0_reads_whole (c : Dev nD) (t : Fin cfg0.N) :
    (∀ k o, iblk0 (F := Ideal) V c 2 t (ix2 k o) = (V c main_v12 : KT.A2 128 256) (ix2 k o))
    ∧ (∀ k o, iblk0 (F := Ideal) V c 3 t (ix2 k o) = (V c main_v13 : KT.A2 128 256) (ix2 k o))
    ∧ ∀ o, iblk0 (F := Ideal) V c 4 t (ix2 (0 : Fin 1) o) = (V c main_v29 : KT.A2 1 256) (ix2 (0 : Fin 1) o) := by
  obtain ⟨-, -, -, -, c0, c1, d0, d1, f0, f1, -⟩ := reg0_idx t
  unfold iblk0
  simp only [View.read_apply]
  refine ⟨fun k o => ?_, fun k o => ?_, fun o => ?_⟩
  · show V c main_v12 _ = V c main_v12 _
    refine congrArg _ (KLin.eq_ix2_of_val _ _ _ ?_ ?_)
    · show win0_2.index t (0 : Fin 2) * 128 + 1 * k.val = k.val; rw [c0]; omega
    · show win0_2.index t (1 : Fin 2) * 256 + 1 * o.val = o.val; rw [c1]; omega
  · show V c main_v13 _ = V c main_v13 _
    refine congrArg _ (KLin.eq_ix2_of_val _ _ _ ?_ ?_)
    · show win0_3.index t (0 : Fin 2) * 128 + 1 * k.val = k.val; rw [d0]; omega
    · show win0_3.index t (1 : Fin 2) * 256 + 1 * o.val = o.val; rw [d1]; omega
  · show V c main_v29 _ = V c main_v29 _
    refine congrArg _ (KLin.eq_ix2_of_val _ _ _ ?_ ?_)
    · show win0_4.index t (0 : Fin 2) * 1 + 1 * (0 : Fin 1).val = (0 : Fin 1).val; rw [f0]; rfl
    · show win0_4.index t (1 : Fin 2) * 256 + 1 * o.val = o.val; rw [f1]; omega

/-- So the payload is the layer's linear part at the block's own rows. -/
theorem reg0_pay1_point (c : Dev nD) (t : Fin cfg0.N) (p : Fin 5000) (o : Fin 256) :
    k0_pay1 (iblk0 (F := Ideal) V c 0 t) (iblk0 V c 1 t) (iblk0 V c 2 t) (iblk0 V c 3 t) (iblk0 V c 4 t) (ix2 p o)
      = reg0_H V c (ix2 (KT.row (reg0_blockOf t) p) o) := by
  obtain ⟨h0, h1⟩ := reg0_reads_rows V c t
  obtain ⟨h2, h3, h4⟩ := reg0_reads_whole V c t
  unfold k0_pay1
  simp only [shapeCast_self]
  exact KLin.lin_apply _ rfl _ _ _ _ _ _ _ _ _ _ _ _ _ h0 h1 h2 h3 h4 p o

theorem reg0_out (x0 x1 : Vec Ideal S5000x128 .f32) (x2 x3 : Vec Ideal S128x256 .f32) (x4 : Vec Ideal S1x256 .f32) :
    out0_5 x0 x1 x2 x3 x4 = k0_pay1 x0 x1 x2 x3 x4 ∧ out0_6 x0 x1 x2 x3 x4 = k0_pay2 x0 x1 x2 x3 x4
      ∧ out0_7 x0 x1 x2 x3 x4 = k0_pay3 x0 x1 x2 x3 x4 := by
  unfold out0_5 out0_6 out0_7
  simp only [View.canon_unit_zero (S := S5000x256) KLin.hz2, View.canon_unit_zero (S := S1x1x256) KLin.hz3, View.ld_unit_zero (S := S5000x128) KLin.hz2,
    View.ld_unit_zero (S := S128x256) KLin.hz2, View.ld_unit_zero (S := S1x256) KLin.hz2, and_self]

theorem final0_5 (c : Dev nD) :
    (dat0 (F := Ideal) V c).arrAt 5 cfg0.N
      = KT.lin0 (V c main_v28) (V c main_arg0) (V c main_v12) (V c main_v13) (V c main_v29) := by
  refine (dat0 (F := Ideal) V c).arrAt_eq_of_cover 5 (reg0_H V c) (fun t _ => ?_) fun (i : S50000x256.Idx) => ?_
  · obtain ⟨-, -, -, -, -, -, -, -, -, -, e0, e1, -⟩ := reg0_idx t
    show (cfg0.win 5).cut (grid0.coords t) ((dat0 V c).after 5 t) = _
    rw [after0_5, (reg0_out _ _ _ _ _).1]
    funext j
    obtain ⟨p, o, rfl⟩ : ∃ (p : Fin 5000) (o : Fin 256), j = ix2 p o := ⟨j 0, j 1, eq_ix2 j⟩
    rw [View.read_apply]
    refine (reg0_pay1_point V c t p o).trans (congrArg (reg0_H V c) (KLin.eq_ix2_of_val _ _ _ ?_ ?_).symm)
    · show win0_5.index t (0 : Fin 2) * 5000 + 1 * p.val = 5000 * t.val + p.val; rw [e0]; omega
    · show win0_5.index t (1 : Fin 2) * 256 + 1 * o.val = o.val; rw [e1]; omega
  · obtain ⟨t, ht⟩ : ∃ t : Fin cfg0.N, t.val = (i 0).val / 5000 :=
      ⟨⟨_, by have := idx2_lt0 i; rw [show cfg0.N = 10 from N_0]; omega⟩, rfl⟩
    obtain ⟨-, -, -, -, -, -, -, -, -, -, e0, e1, -⟩ := reg0_idx t
    refine ⟨t, flush0_5 t, ?_⟩
    show i ∈ ((View.whole main_v30_0).slice (win0_5.rect t)).set
    rw [View.set_slice_whole]
    refine KLin.mem_rows2 i (by decide) ?_ ?_
    · show win0_5.index t (0 : Fin 2) * 5000 = _; rw [e0, ht]
    · show win0_5.index t (1 : Fin 2) * 256 = 0; rw [e1]

theorem final0_6 (c : Dev nD) :
    (dat0 (F := Ideal) V c).arrAt 6 cfg0.N
      = KT.bsum256 (KT.lin0 (V c main_v28) (V c main_arg0) (V c main_v12) (V c main_v13) (V c main_v29)) := by
  refine (dat0 (F := Ideal) V c).arrAt_eq_of_cover 6 (KT.bsum256 (reg0_H V c)) (fun t _ => ?_) fun (i : S10x1x256.Idx) => ?_
  · obtain ⟨-, -, -, -, -, -, -, -, -, -, -, -, e0, e1, e2, -⟩ := reg0_idx t
    show (cfg0.win 6).cut (grid0.coords t) ((dat0 V c).after 6 t) = _
    rw [after0_6, (reg0_out _ _ _ _ _).2.1]
    funext j
    obtain ⟨o, rfl⟩ : ∃ o : Fin 256, j = ix3 (0 : Fin 1) (0 : Fin 1) o := ⟨j 2, KLin.eq_ix3_11 j⟩
    rw [View.read_apply]
    unfold k0_pay2
    refine (KLin.colsum_apply _ _ _ _ o).trans (Eq.trans ?_
      (congrArg (KT.bsum256 (reg0_H V c)) (KLin.eq_ix3_of_val _ (reg0_blockOf t) (0 : Fin 1) o ?_ ?_ ?_).symm))
    · exact Finset.sum_congr rfl fun p _ => reg0_pay1_point V c t p o
    · show win0_6.index t (0 : Fin 3) * 1 + 1 * 0 = t.val; rw [e0]; omega
    · show win0_6.index t (1 : Fin 3) * 1 + 1 * 0 = 0; rw [e1]
    · show win0_6.index t (2 : Fin 3) * 256 + 1 * o.val = o.val; rw [e2]; omega
  · obtain ⟨t, ht⟩ : ∃ t : Fin cfg0.N, t.val = (i 0).val := ⟨⟨(i 0).val, lt_of_lt_of_eq (i 0).isLt N_0.symm⟩, rfl⟩
    obtain ⟨-, -, -, -, -, -, -, -, -, -, -, -, e0, e1, e2, -⟩ := reg0_idx t
    refine ⟨t, flush0_6 t, ?_⟩
    show i ∈ ((View.whole main_v30_1).slice (win0_6.rect t)).set
    rw [View.set_slice_whole]
    refine KLin.mem_lead3 i ?_ ?_ ?_
    · show win0_6.index t (0 : Fin 3) * 1 = _; rw [e0, ht, Nat.mul_one]
    · show win0_6.index t (1 : Fin 3) * 1 = 0; rw [e1]
    · show win0_6.index t (2 : Fin 3) * 256 = 0; rw [e2]

theorem final0_7 (c : Dev nD) :
    (dat0 (F := Ideal) V c).arrAt 7 cfg0.N
      = KT.bsumsq256 (KT.lin0 (V c main_v28) (V c main_arg0) (V c main_v12) (V c main_v13) (V c main_v29)) := by
  refine (dat0 (F := Ideal) V c).arrAt_eq_of_cover 7 (KT.bsumsq256 (reg0_H V c)) (fun t _ => ?_) fun (i : S10x1x256.Idx) => ?_
  · obtain ⟨-, -, -, -, -, -, -, -, -, -, -, -, -, -, -, e0, e1, e2⟩ := reg0_idx t
    show (cfg0.win 7).cut (grid0.coords t) ((dat0 V c).after 7 t) = _
    rw [after0_7, (reg0_out _ _ _ _ _).2.2]
    funext j
    obtain ⟨o, rfl⟩ : ∃ o : Fin 256, j = ix3 (0 : Fin 1) (0 : Fin 1) o := ⟨j 2, KLin.eq_ix3_11 j⟩
    rw [View.read_apply]
    unfold k0_pay3
    refine (KLin.colsum_apply _ _ _ _ o).trans (Eq.trans ?_
      (congrArg (KT.bsumsq256 (reg0_H V c)) (KLin.eq_ix3_of_val _ (reg0_blockOf t) (0 : Fin 1) o ?_ ?_ ?_).symm))
    · exact Finset.sum_congr rfl fun p _ => congrArg (fun z => z * z) (reg0_pay1_point V c t p o)
    · show win0_7.index t (0 : Fin 3) * 1 + 1 * 0 = t.val; rw [e0]; omega
    · show win0_7.index t (1 : Fin 3) * 1 + 1 * 0 = 0; rw [e1]
    · show win0_7.index t (2 : Fin 3) * 256 + 1 * o.val = o.val; rw [e2]; omega
  · obtain ⟨t, ht⟩ : ∃ t : Fin cfg0.N, t.val = (i 0).val := ⟨⟨(i 0).val, lt_of_lt_of_eq (i 0).isLt N_0.symm⟩, rfl⟩
    obtain ⟨-, -, -, -, -, -, -, -, -, -, -, -, -, -, -, e0, e1, e2⟩ := reg0_idx t
    refine ⟨t, flush0_7 t, ?_⟩
    show i ∈ ((View.whole main_v30_2).slice (win0_7.rect t)).set
    rw [View.set_slice_whole]
    refine KLin.mem_lead3 i ?_ ?_ ?_
    · show win0_7.index t (0 : Fin 3) * 1 = _; rw [e0, ht, Nat.mul_one]
    · show win0_7.index t (1 : Fin 3) * 1 = 0; rw [e1]
    · show win0_7.index t (2 : Fin 3) * 256 = 0; rw [e2]

end Cert.KernelIdeal.KReg

end
-- ==== Proof.KRegRow.lean ====
import proofs.«408482_j65996467470993_2_alg».proof.Proof.KRegLin

noncomputable section

namespace Cert.KLin

open Idealize.ShloMosaic Idealize.ShloMosaic.ValueIdx

/-- Centring by a row, scaling by the inverse root of another, scaling, shifting and clamping at zero, at a row and a column. -/
theorem bnrelu_apply {M O : Nat} (hb : (⟨2, ![1, O]⟩ : Shape).Broadcasts ⟨2, ![M, O]⟩)
    (x0 : FVec Ideal ⟨2, ![M, O]⟩ .f32) (xv xm xw xb : FVec Ideal ⟨2, ![1, O]⟩ .f32)
    (h : KT.A2 50000 O) (r : Fin M → Fin 50000) (h0 : ∀ p q, x0 (ix2 p q) = h (ix2 (r p) q)) (p : Fin M) (q : Fin O) :
    maximumf (addf (mulf (mulf (subf x0 (broadcastTo ⟨2, ![M, O]⟩ xm hb))
          (broadcastTo ⟨2, ![M, O]⟩ (rsqrt (addf xv (broadcast ⟨2, ![1, O]⟩ (Scalar.ofBits .f32 0x3727C5AC#32)))) hb))
          (broadcastTo ⟨2, ![M, O]⟩ xw hb)) (broadcastTo ⟨2, ![M, O]⟩ xb hb))
        (broadcast ⟨2, ![M, O]⟩ (Scalar.ofBits .f32 0x00000000#32)) (ix2 p q)
      = KT.bnreluAt h xm xv xw xb (r p) q := by
  rw [maximumf_apply, addf_apply, mulf_apply, mulf_apply, subf_apply, broadcast_apply, broadcastTo_1b_ab_apply,
    broadcastTo_1b_ab_apply, broadcastTo_1b_ab_apply, broadcastTo_1b_ab_apply, h0]
  rfl

/-- A transposed matrix times another into the zero accumulator, a unit axis put in front: the sum down the shared rows. -/
theorem pool_apply {G P O : Nat} (d : DotDims ⟨2, ![G, P]⟩ ⟨2, ![P, O]⟩ ⟨2, ![G, O]⟩) (hd : d = DotDims.plain G P O)
    (ht : (⟨2, ![P, G]⟩ : Shape).Transposes [1, 0] ⟨2, ![G, P]⟩) (hc : (⟨2, ![G, O]⟩ : Shape).ShapeCasts ⟨3, ![1, G, O]⟩)
    (L : FVec Ideal ⟨2, ![P, G]⟩ .bf16) (Rv : FVec Ideal ⟨2, ![P, O]⟩ .bf16) (g : Fin G) (o : Fin O) :
    shapeCast ⟨3, ![1, G, O]⟩ (matmul d none (transpose ⟨2, ![G, P]⟩ [1, 0] L ht) Rv
        (constant (F := Ideal) ⟨2, ![G, O]⟩ .f32 0x00000000#32)) hc (ix3 (0 : Fin 1) g o)
      = ∑ p : Fin P, L (ix2 p g) * Rv (ix2 p o) := by
  subst hd
  rw [shapeCast_ab_1ab_apply, mm_apply]
  exact Finset.sum_congr rfl fun p _ => by rw [transpose_ix2_apply]

/-- An index of a rank-3 array lies in the block of full rows and columns its leading coordinate names. -/
theorem mem_lead {n0 n1 n2 : Nat} {off : Fin 3 → Nat} {inb} (i : (⟨3, ![n0, n1, n2]⟩ : Shape).Idx)
    (h0 : off 0 = (i 0).val) (h1 : off 1 = 0) (h2 : off 2 = 0) :
    i ∈ (Rect.unit (s := ⟨3, ![n0, n1, n2]⟩) off ![1, n1, n2] inb).set := by
  have : (i 1).val < n1 := (i 1).isLt
  have : (i 2).val < n2 := (i 2).isLt
  refine Rect.mem_set_unit.mpr fun a => ?_
  match a with
  | ⟨0, _⟩ => show off 0 ≤ (i 0).val ∧ (i 0).val < off 0 + 1; omega
  | ⟨1, _⟩ => show off 1 ≤ (i 1).val ∧ (i 1).val < off 1 + n1; omega
  | ⟨2, _⟩ => show off 2 ≤ (i 2).val ∧ (i 2).val < off 2 + n2; omega

end Cert.KLin

end
-- ==== Proof.KReg1.lean ====
import proofs.«408482_j65996467470993_2_alg».proof.Proof.Gen.KernelIdeal.Frame
import proofs.«408482_j65996467470993_2_alg».proof.Proof.KRegRow

noncomputable section

namespace Cert.KernelIdeal.KReg

open Idealize.ShloMosaic Idealize.ShloMosaic.TcCoe Idealize.SL.Sem
open Cert.KernelIdeal Cert.KernelIdeal.Gen
open Idealize.ShloMosaic.ValueIdx

theorem reg1_idx : ∀ t : Fin cfg1.N,
    win1_0.index t (0 : Fin 2) = t.val ∧ win1_0.index t (1 : Fin 2) = 0
    ∧ (∀ a, win1_1.index t a = 0) ∧ (∀ a, win1_2.index t a = 0) ∧ (∀ a, win1_3.index t a = 0) ∧ (∀ a, win1_4.index t a = 0)
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

theorem reg1_rows (c : Dev nD) (t : Fin cfg1.N) :
    (iblk1 V c 1 t : Vec Ideal S1x256 .f32) = V c main_v33 ∧ (iblk1 V c 2 t : Vec Ideal S1x256 .f32) = V c main_v40
    ∧ (iblk1 V c 3 t : Vec Ideal S1x256 .f32) = V c main_v41 ∧ (iblk1 V c 4 t : Vec Ideal S1x256 .f32) = V c main_v42 := by
  obtain ⟨-, -, e1, e2, e3, e4, -⟩ := reg1_idx t
  unfold iblk1
  refine ⟨funext fun x => ?_, funext fun x => ?_, funext fun x => ?_, funext fun x => ?_⟩ <;> rw [View.read_apply]
  · show V c main_v33 _ = V c main_v33 x
    exact congrArg _ (funext fun a => Fin.ext (win1_1.rect_emb_val_of_index_zero t a (e1 a) x))
  · show V c main_v40 _ = V c main_v40 x
    exact congrArg _ (funext fun a => Fin.ext (win1_2.rect_emb_val_of_index_zero t a (e2 a) x))
  · show V c main_v41 _ = V c main_v41 x
    exact congrArg _ (funext fun a => Fin.ext (win1_3.rect_emb_val_of_index_zero t a (e3 a) x))
  · show V c main_v42 _ = V c main_v42 x
    exact congrArg _ (funext fun a => Fin.ext (win1_4.rect_emb_val_of_index_zero t a (e4 a) x))

theorem reg1_read0 (c : Dev nD) (t : Fin cfg1.N) (p : Fin 5000) (q : Fin 256) :
    (iblk1 V c 0 t : Vec Ideal S5000x256 .f32) (ix2 p q)
      = (V c main_v30_0 : KT.A2 50000 256) (ix2 (KT.row (t.cast N_1) p) q) := by
  obtain ⟨e0, e1, -⟩ := reg1_idx t
  unfold iblk1
  rw [View.read_apply]
  show V c main_v30_0 _ = V c main_v30_0 _
  refine congrArg _ (KLin.eq_ix2_of_val _ _ _ ?_ ?_)
  · show win1_0.index t (0 : Fin 2) * 5000 + 1 * p.val = 5000 * t.val + p.val; rw [e0]; omega
  · show win1_0.index t (1 : Fin 2) * 256 + 1 * q.val = q.val; rw [e1]; omega

theorem reg1_pay (c : Dev nD) (t : Fin cfg1.N) (p : Fin 5000) (q : Fin 256) :
    k1_pay1 (iblk1 V c 0 t) (iblk1 V c 2 t) (iblk1 V c 1 t) (iblk1 V c 3 t) (iblk1 V c 4 t) (ix2 p q)
      = KT.bnrelu256 (V c main_v30_0) (V c main_v33) (V c main_v40) (V c main_v41) (V c main_v42)
          (ix2 (KT.row (t.cast N_1) p) q) := by
  obtain ⟨r1, r2, r3, r4⟩ := reg1_rows V c t
  rw [r1, r2, r3, r4]
  unfold k1_pay1
  simp only [shapeCast_self]
  exact KLin.bnrelu_apply _ _ _ _ _ _ (V c main_v30_0) (KT.row (t.cast N_1)) (reg1_read0 V c t) p q

theorem final1_5 (c : Dev nD) :
    (dat1 (F := Ideal) V c).arrAt 5 cfg1.N
      = KT.bnrelu256 (V c main_v30_0) (V c main_v33) (V c main_v40) (V c main_v41) (V c main_v42) := by
  refine (dat1 (F := Ideal) V c).arrAt_eq_of_cover 5 _ (fun t _ => ?_) fun (i : S50000x256.Idx) => ?_
  · obtain ⟨-, -, -, -, -, -, e0, e1⟩ := reg1_idx t
    show (cfg1.win 5).cut (grid1.coords t) ((dat1 V c).after 5 t) = _
    rw [after1_5]
    unfold out1_5
    rw [View.canon_unit_zero KLin.hz2]
    simp only [View.ld_unit_zero (S := S5000x256) KLin.hz2, View.ld_unit_zero (S := S1x256) KLin.hz2]
    funext j
    obtain ⟨p, q, rfl⟩ : ∃ (p : Fin 5000) (q : Fin 256), j = ix2 p q := ⟨j 0, j 1, eq_ix2 j⟩
    rw [View.read_apply]
    refine (reg1_pay V c t p q).trans
      (congrArg (KT.bnrelu256 (V c main_v30_0) (V c main_v33) (V c main_v40) (V c main_v41) (V c main_v42))
        (KLin.eq_ix2_of_val _ _ _ ?_ ?_).symm)
    · show win1_5.index t (0 : Fin 2) * 5000 + 1 * p.val = 5000 * t.val + p.val; rw [e0]; omega
    · show win1_5.index t (1 : Fin 2) * 256 + 1 * q.val = q.val; rw [e1]; omega
  · obtain ⟨t, ht⟩ : ∃ t : Fin cfg1.N, t.val = (i 0).val / 5000 :=
      ⟨⟨_, by have := idx2_lt0 i; rw [show cfg1.N = 10 from N_1]; omega⟩, rfl⟩
    obtain ⟨-, -, -, -, -, -, e0, e1⟩ := reg1_idx t
    refine ⟨t, flush1_5 t, ?_⟩
    show i ∈ ((View.whole main_v43).slice (win1_5.rect t)).set
    rw [View.set_slice_whole]
    refine KLin.mem_rows2 i (by decide) ?_ ?_
    · show win1_5.index t (0 : Fin 2) * 5000 = _; rw [e0, ht]
    · show win1_5.index t (1 : Fin 2) * 256 = 0; rw [e1]

end Cert.KernelIdeal.KReg

end
-- ==== Proof.KHostA.lean ====
import proofs.«408482_j65996467470993_2_alg».proof.Proof.KChainA
import proofs.«408482_j65996467470993_2_alg».proof.Proof.KReg0
import proofs.«408482_j65996467470993_2_alg».proof.Proof.KReg1
import proofs.«408482_j65996467470993_2_alg».proof.Proof.Gen.KernelIdeal.Frame
import Idealize.ShloMosaic.Lib.StableHlo.Run

noncomputable section

namespace Cert.KernelIdeal.KHost

open Idealize.ShloMosaic Idealize.ShloMosaic.TcCoe Idealize.SL.Sem
open Cert.KernelIdeal Cert.KernelIdeal.Gen

macro "kept_host" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg) (c : Dev nD)
/-- The first host stretch writes none of these arguments, and before it a buffer holds its launch contents. -/
theorem W1_arg : ∀ r ∈ [main_arg0, main_arg2, main_arg6, main_arg7, main_arg9, main_arg11, main_arg12, main_arg13, main_arg14, main_arg15, main_arg16],
    W1 m ρ c (Proc.devRef .tc r) = m ((c : Thread nD τ).loc r) := List.forall_iff_forall_mem.mp (by
  simp only [List.Forall]
  repeat' apply And.intro
  all_goals exact (show W1 m ρ c _ = W0 m ρ c _ by kept_host hostOps0).trans rfl)

theorem W1_main_v1 : W1 m ρ c (Proc.devRef .tc main_v1) = KC.src1 (m ((c : Thread nD τ).loc main_arg1)) := by
  show StableHlo.after hostOps0 (W0 m ρ c) (Proc.devRef .tc main_v1) = _
  after_results_simp <;> rfl

theorem W1_main_v3 : W1 m ρ c (Proc.devRef .tc main_v3) = KC.dst1 (m ((c : Thread nD τ).loc main_arg1)) := by
  show StableHlo.after hostOps0 (W0 m ρ c) (Proc.devRef .tc main_v3) = _
  after_results_simp <;> rfl

theorem W1_main_v11 : W1 m ρ c (Proc.devRef .tc main_v11) = KC.invdeg (KC.dst1 (m ((c : Thread nD τ).loc main_arg1))) := by
  show StableHlo.after hostOps0 (W0 m ρ c) (Proc.devRef .tc main_v11) = _
  after_results_simp <;> rfl

theorem W1_main_v12 : W1 m ρ c (Proc.devRef .tc main_v12) = (transpose S128x256 [1, 0] (m ((c : Thread nD τ).loc main_arg3)) transposes_S256x128_S128x256_1_0) := by
  show StableHlo.after hostOps0 (W0 m ρ c) (Proc.devRef .tc main_v12) = _
  after_results_simp <;> rfl

theorem W1_main_v13 : W1 m ρ c (Proc.devRef .tc main_v13) = (transpose S128x256 [1, 0] (m ((c : Thread nD τ).loc main_arg5)) transposes_S256x128_S128x256_1_0) := by
  show StableHlo.after hostOps0 (W0 m ρ c) (Proc.devRef .tc main_v13) = _
  after_results_simp <;> rfl

theorem W1_main_v14 : W1 m ρ c (Proc.devRef .tc main_v14) = (transpose S256x128 [1, 0] (m ((c : Thread nD τ).loc main_arg8)) transposes_S128x256_S256x128_1_0) := by
  show StableHlo.after hostOps0 (W0 m ρ c) (Proc.devRef .tc main_v14) = _
  after_results_simp <;> rfl

theorem W1_main_v15 : W1 m ρ c (Proc.devRef .tc main_v15) = (transpose S256x128 [1, 0] (m ((c : Thread nD τ).loc main_arg10)) transposes_S128x256_S256x128_1_0) := by
  show StableHlo.after hostOps0 (W0 m ρ c) (Proc.devRef .tc main_v15) = _
  after_results_simp <;> rfl

theorem W1_main_v28 : W1 m ρ c (Proc.devRef .tc main_v28) = KC.aggOf128 (m ((c : Thread nD τ).loc main_arg0)) (KC.src1 (m ((c : Thread nD τ).loc main_arg1))) (KC.dst1 (m ((c : Thread nD τ).loc main_arg1))) (KC.invdeg (KC.dst1 (m ((c : Thread nD τ).loc main_arg1)))) := by
  show StableHlo.after hostOps0 (W0 m ρ c) (Proc.devRef .tc main_v28) = _
  after_results_simp <;> rfl

theorem W1_main_v29 : W1 m ρ c (Proc.devRef .tc main_v29) = (shapeCast S1x256 (m ((c : Thread nD τ).loc main_arg4)) shapeCasts_S256_S1x256) := by
  show StableHlo.after hostOps0 (W0 m ρ c) (Proc.devRef .tc main_v29) = _
  after_results_simp <;> rfl
theorem W2_main_v30_0 : W2 m ρ c (Proc.devRef .tc main_v30_0) = KC.hpre0 (KC.aggOf128 (m ((c : Thread nD τ).loc main_arg0)) (KC.src1 (m ((c : Thread nD τ).loc main_arg1))) (KC.dst1 (m ((c : Thread nD τ).loc main_arg1))) (KC.invdeg (KC.dst1 (m ((c : Thread nD τ).loc main_arg1))))) (m ((c : Thread nD τ).loc main_arg0)) (m ((c : Thread nD τ).loc main_arg3)) (m ((c : Thread nD τ).loc main_arg4)) (m ((c : Thread nD τ).loc main_arg5)) := by
  refine ((W2_arr m ρ c 5).trans (KReg.final0_5 (V1 m ρ) c)).trans ?_
  show KT.lin0 (W1 m ρ c (Proc.devRef .tc main_v28)) (W1 m ρ c (Proc.devRef .tc main_arg0)) (W1 m ρ c (Proc.devRef .tc main_v12))
      (W1 m ρ c (Proc.devRef .tc main_v13)) (W1 m ρ c (Proc.devRef .tc main_v29)) = _
  rw [W1_main_v28, W1_arg m ρ c main_arg0 (by decide), W1_main_v12, W1_main_v13, W1_main_v29]
  rfl

theorem W2_main_v30_1 : W2 m ρ c (Proc.devRef .tc main_v30_1) = KT.bsum256 (KC.hpre0 (KC.aggOf128 (m ((c : Thread nD τ).loc main_arg0)) (KC.src1 (m ((c : Thread nD τ).loc main_arg1))) (KC.dst1 (m ((c : Thread nD τ).loc main_arg1))) (KC.invdeg (KC.dst1 (m ((c : Thread nD τ).loc main_arg1))))) (m ((c : Thread nD τ).loc main_arg0)) (m ((c : Thread nD τ).loc main_arg3)) (m ((c : Thread nD τ).loc main_arg4)) (m ((c : Thread nD τ).loc main_arg5))) := by
  refine ((W2_arr m ρ c 6).trans (KReg.final0_6 (V1 m ρ) c)).trans ?_
  show KT.bsum256 (KT.lin0 (W1 m ρ c (Proc.devRef .tc main_v28)) (W1 m ρ c (Proc.devRef .tc main_arg0)) (W1 m ρ c (Proc.devRef .tc main_v12))
      (W1 m ρ c (Proc.devRef .tc main_v13)) (W1 m ρ c (Proc.devRef .tc main_v29))) = _
  rw [W1_main_v28, W1_arg m ρ c main_arg0 (by decide), W1_main_v12, W1_main_v13, W1_main_v29]
  rfl

theorem W2_main_v30_2 : W2 m ρ c (Proc.devRef .tc main_v30_2) = KT.bsumsq256 (KC.hpre0 (KC.aggOf128 (m ((c : Thread nD τ).loc main_arg0)) (KC.src1 (m ((c : Thread nD τ).loc main_arg1))) (KC.dst1 (m ((c : Thread nD τ).loc main_arg1))) (KC.invdeg (KC.dst1 (m ((c : Thread nD τ).loc main_arg1))))) (m ((c : Thread nD τ).loc main_arg0)) (m ((c : Thread nD τ).loc main_arg3)) (m ((c : Thread nD τ).loc main_arg4)) (m ((c : Thread nD τ).loc main_arg5))) := by
  refine ((W2_arr m ρ c 7).trans (KReg.final0_7 (V1 m ρ) c)).trans ?_
  show KT.bsumsq256 (KT.lin0 (W1 m ρ c (Proc.devRef .tc main_v28)) (W1 m ρ c (Proc.devRef .tc main_arg0)) (W1 m ρ c (Proc.devRef .tc main_v12))
      (W1 m ρ c (Proc.devRef .tc main_v13)) (W1 m ρ c (Proc.devRef .tc main_v29))) = _
  rw [W1_main_v28, W1_arg m ρ c main_arg0 (by decide), W1_main_v12, W1_main_v13, W1_main_v29]
  rfl
theorem W3_main_v30_0 : W3 m ρ c (Proc.devRef .tc main_v30_0) = KC.hpre0 (KC.aggOf128 (m ((c : Thread nD τ).loc main_arg0)) (KC.src1 (m ((c : Thread nD τ).loc main_arg1))) (KC.dst1 (m ((c : Thread nD τ).loc main_arg1))) (KC.invdeg (KC.dst1 (m ((c : Thread nD τ).loc main_arg1))))) (m ((c : Thread nD τ).loc main_arg0)) (m ((c : Thread nD τ).loc main_arg3)) (m ((c : Thread nD τ).loc main_arg4)) (m ((c : Thread nD τ).loc main_arg5)) :=
  (show W3 m ρ c (Proc.devRef .tc main_v30_0) = W2 m ρ c (Proc.devRef .tc main_v30_0) by kept_host hostOps1).trans (W2_main_v30_0 m ρ c)
theorem W3_main_v33 : W3 m ρ c (Proc.devRef .tc main_v33) = KC.mean0 (KC.hpre0 (KC.aggOf128 (m ((c : Thread nD τ).loc main_arg0)) (KC.src1 (m ((c : Thread nD τ).loc main_arg1))) (KC.dst1 (m ((c : Thread nD τ).loc main_arg1))) (KC.invdeg (KC.dst1 (m ((c : Thread nD τ).loc main_arg1))))) (m ((c : Thread nD τ).loc main_arg0)) (m ((c : Thread nD τ).loc main_arg3)) (m ((c : Thread nD τ).loc main_arg4)) (m ((c : Thread nD τ).loc main_arg5))) := by
  show StableHlo.after hostOps1 (W2 m ρ c) (Proc.devRef .tc main_v33) = _
  after_results_simp
  rw [W2_main_v30_1]
  rfl

theorem W3_main_v40 : W3 m ρ c (Proc.devRef .tc main_v40) = KC.var0 (KC.hpre0 (KC.aggOf128 (m ((c : Thread nD τ).loc main_arg0)) (KC.src1 (m ((c : Thread nD τ).loc main_arg1))) (KC.dst1 (m ((c : Thread nD τ).loc main_arg1))) (KC.invdeg (KC.dst1 (m ((c : Thread nD τ).loc main_arg1))))) (m ((c : Thread nD τ).loc main_arg0)) (m ((c : Thread nD τ).loc main_arg3)) (m ((c : Thread nD τ).loc main_arg4)) (m ((c : Thread nD τ).loc main_arg5))) := by
  show StableHlo.after hostOps1 (W2 m ρ c) (Proc.devRef .tc main_v40) = _
  after_results_simp
  rw [W2_main_v30_1, W2_main_v30_2]
  rfl

theorem W3_main_v41 : W3 m ρ c (Proc.devRef .tc main_v41) = shapeCast S1x256 (m ((c : Thread nD τ).loc main_arg6)) shapeCasts_S256_S1x256 := by
  show StableHlo.after hostOps1 (W2 m ρ c) (Proc.devRef .tc main_v41) = _
  after_results_simp
  rw [W2_of_ne m ρ c main_arg6 (by decide), W1_arg m ρ c main_arg6 (by decide)]
  rfl

theorem W3_main_v42 : W3 m ρ c (Proc.devRef .tc main_v42) = shapeCast S1x256 (m ((c : Thread nD τ).loc main_arg7)) shapeCasts_S256_S1x256 := by
  show StableHlo.after hostOps1 (W2 m ρ c) (Proc.devRef .tc main_v42) = _
  after_results_simp
  rw [W2_of_ne m ρ c main_arg7 (by decide), W1_arg m ρ c main_arg7 (by decide)]
  rfl
theorem W4_v43 : W4 m ρ c (Proc.devRef .tc main_v43) = KC.act0 (KC.hpre0 (KC.aggOf128 (m ((c : Thread nD τ).loc main_arg0)) (KC.src1 (m ((c : Thread nD τ).loc main_arg1))) (KC.dst1 (m ((c : Thread nD τ).loc main_arg1))) (KC.invdeg (KC.dst1 (m ((c : Thread nD τ).loc main_arg1))))) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) := by
  refine ((W4_arr m ρ c 5).trans (KReg.final1_5 (V3 m ρ) c)).trans ?_
  show KT.bnrelu256 (W3 m ρ c (Proc.devRef .tc main_v30_0)) (W3 m ρ c (Proc.devRef .tc main_v33)) (W3 m ρ c (Proc.devRef .tc main_v40))
      (W3 m ρ c (Proc.devRef .tc main_v41)) (W3 m ρ c (Proc.devRef .tc main_v42)) = _
  rw [W3_main_v30_0, W3_main_v33, W3_main_v40, W3_main_v41, W3_main_v42]
  rfl
/-- Neither region writes these buffers and the host stretch between them does not either: they hold what the first host stretch left. -/
theorem W4_keep : ∀ r ∈ [main_v1, main_v3, main_v11, main_v14, main_v15, main_arg2, main_arg9, main_arg11, main_arg12, main_arg13, main_arg14, main_arg15, main_arg16],
    W4 m ρ c (Proc.devRef .tc r) = W1 m ρ c (Proc.devRef .tc r) := List.forall_iff_forall_mem.mp (by
  simp only [List.Forall]
  repeat' apply And.intro
  all_goals exact (W4_of_ne m ρ c _ (by decide)).trans ((show W3 m ρ c _ = W2 m ρ c _ by kept_host hostOps1).trans (W2_of_ne m ρ c _ (by decide))))

end Cert.KernelIdeal.KHost

end
-- ==== Proof.KReg2.lean ====
import proofs.«408482_j65996467470993_2_alg».proof.Proof.Gen.KernelIdeal.Frame
import proofs.«408482_j65996467470993_2_alg».proof.Proof.KRegLin

noncomputable section

namespace Cert.KernelIdeal.KReg

open Idealize.ShloMosaic Idealize.ShloMosaic.TcCoe Idealize.SL.Sem
open Cert.KernelIdeal Cert.KernelIdeal.Gen
open Idealize.ShloMosaic.ValueIdx

theorem reg2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 3) = t.val ∧ win2_6.index t (1 : Fin 3) = 0 ∧ win2_6.index t (2 : Fin 3) = 0
    ∧ win2_7.index t (0 : Fin 3) = t.val ∧ win2_7.index t (1 : Fin 3) = 0 ∧ win2_7.index t (2 : Fin 3) = 0 :=
  (by decide +kernel : ∀ t : Fin grid2.N, _)

def reg2_blockOf (t : Fin cfg2.N) : Fin 10 := ⟨t.val, lt_of_lt_of_eq t.isLt N_2⟩

variable (V : (c : Dev nD) → (b : Ref sig .tc) → Buf (Elt Ideal) ((c : Thread nD τ).loc b))

abbrev reg2_H (c : Dev nD) : KT.A2 50000 128 :=
  KT.lin1 (V c main_v56) (V c main_v43) (V c main_v14) (V c main_v15) (V c main_v57)

/-- The two row-blocked operands' blocks, read at an index, are their arrays at the block's own rows. -/
theorem reg2_reads_rows (c : Dev nD) (t : Fin cfg2.N) :
    (∀ p k, iblk2 (F := Ideal) V c 0 t (ix2 p k) = (V c main_v56 : KT.A2 50000 256) (ix2 (KT.row (reg2_blockOf t) p) k))
    ∧ ∀ p k, iblk2 (F := Ideal) V c 1 t (ix2 p k) = (V c main_v43 : KT.A2 50000 256) (ix2 (KT.row (reg2_blockOf t) p) k) := by
  obtain ⟨a0, a1, b0, b1, -⟩ := reg2_idx t
  unfold iblk2
  simp only [View.read_apply]
  refine ⟨fun p k => ?_, fun p k => ?_⟩
  · show V c main_v56 _ = V c main_v56 _
    refine congrArg _ (KLin.eq_ix2_of_val _ _ _ ?_ ?_)
    · show win2_0.index t (0 : Fin 2) * 5000 + 1 * p.val = 5000 * t.val + p.val; rw [a0]; omega
    · show win2_0.index t (1 : Fin 2) * 256 + 1 * k.val = k.val; rw [a1]; omega
  · show V c main_v43 _ = V c main_v43 _
    refine congrArg _ (KLin.eq_ix2_of_val _ _ _ ?_ ?_)
    · show win2_1.index t (0 : Fin 2) * 5000 + 1 * p.val = 5000 * t.val + p.val; rw [b0]; omega
    · show win2_1.index t (1 : Fin 2) * 256 + 1 * k.val = k.val; rw [b1]; omega

/-- The weights' and the bias's blocks are their whole arrays. -/
theorem reg2_reads_whole (c : Dev nD) (t : Fin cfg2.N) :
    (∀ k o, iblk2 (F := Ideal) V c 2 t (ix2 k o) = (V c main_v14 : KT.A2 256 128) (ix2 k o))
    ∧ (∀ k o, iblk2 (F := Ideal) V c 3 t (ix2 k o) = (V c main_v15 : KT.A2 256 128) (ix2 k o))
    ∧ ∀ o, iblk2 (F := Ideal) V c 4 t (ix2 (0 : Fin 1) o) = (V c main_v57 : KT.A2 1 128) (ix2 (0 : Fin 1) o) := by
  obtain ⟨-, -, -, -, c0, c1, d0, d1, f0, f1, -⟩ := reg2_idx t
  unfold iblk2
  simp only [View.read_apply]
  refine ⟨fun k o => ?_, fun k o => ?_, fun o => ?_⟩
  · show V c main_v14 _ = V c main_v14 _
    refine congrArg _ (KLin.eq_ix2_of_val _ _ _ ?_ ?_)
    · show win2_2.index t (0 : Fin 2) * 256 + 1 * k.val = k.val; rw [c0]; omega
    · show win2_2.index t (1 : Fin 2) * 128 + 1 * o.val = o.val; rw [c1]; omega
  · show V c main_v15 _ = V c main_v15 _
    refine congrArg _ (KLin.eq_ix2_of_val _ _ _ ?_ ?_)
    · show win2_3.index t (0 : Fin 2) * 256 + 1 * k.val = k.val; rw [d0]; omega
    · show win2_3.index t (1 : Fin 2) * 128 + 1 * o.val = o.val; rw [d1]; omega
  · show V c main_v57 _ = V c main_v57 _
    refine congrArg _ (KLin.eq_ix2_of_val _ _ _ ?_ ?_)
    · show win2_4.index t (0 : Fin 2) * 1 + 1 * (0 : Fin 1).val = (0 : Fin 1).val; rw [f0]; rfl
    · show win2_4.index t (1 : Fin 2) * 128 + 1 * o.val = o.val; rw [f1]; omega

/-- So the payload is the layer's linear part at the block's own rows. -/
theorem reg2_pay1_point (c : Dev nD) (t : Fin cfg2.N) (p : Fin 5000) (o : Fin 128) :
    k2_pay1 (iblk2 (F := Ideal) V c 0 t) (iblk2 V c 1 t) (iblk2 V c 2 t) (iblk2 V c 3 t) (iblk2 V c 4 t) (ix2 p o)
      = reg2_H V c (ix2 (KT.row (reg2_blockOf t) p) o) := by
  obtain ⟨h0, h1⟩ := reg2_reads_rows V c t
  obtain ⟨h2, h3, h4⟩ := reg2_reads_whole V c t
  unfold k2_pay1
  simp only [shapeCast_self]
  exact KLin.lin_apply _ rfl _ _ _ _ _ _ _ _ _ _ _ _ _ h0 h1 h2 h3 h4 p o

theorem reg2_out (x0 x1 : Vec Ideal S5000x256 .f32) (x2 x3 : Vec Ideal S256x128 .f32) (x4 : Vec Ideal S1x128 .f32) :
    out2_5 x0 x1 x2 x3 x4 = k2_pay1 x0 x1 x2 x3 x4 ∧ out2_6 x0 x1 x2 x3 x4 = k2_pay2 x0 x1 x2 x3 x4
      ∧ out2_7 x0 x1 x2 x3 x4 = k2_pay3 x0 x1 x2 x3 x4 := by
  unfold out2_5 out2_6 out2_7
  simp only [View.canon_unit_zero (S := S5000x128) KLin.hz2, View.canon_unit_zero (S := S1x1x128) KLin.hz3, View.ld_unit_zero (S := S5000x256) KLin.hz2,
    View.ld_unit_zero (S := S256x128) KLin.hz2, View.ld_unit_zero (S := S1x128) KLin.hz2, and_self]

theorem final2_5 (c : Dev nD) :
    (dat2 (F := Ideal) V c).arrAt 5 cfg2.N
      = KT.lin1 (V c main_v56) (V c main_v43) (V c main_v14) (V c main_v15) (V c main_v57) := by
  refine (dat2 (F := Ideal) V c).arrAt_eq_of_cover 5 (reg2_H V c) (fun t _ => ?_) fun (i : S50000x128.Idx) => ?_
  · obtain ⟨-, -, -, -, -, -, -, -, -, -, e0, e1, -⟩ := reg2_idx t
    show (cfg2.win 5).cut (grid2.coords t) ((dat2 V c).after 5 t) = _
    rw [after2_5, (reg2_out _ _ _ _ _).1]
    funext j
    obtain ⟨p, o, rfl⟩ : ∃ (p : Fin 5000) (o : Fin 128), j = ix2 p o := ⟨j 0, j 1, eq_ix2 j⟩
    rw [View.read_apply]
    refine (reg2_pay1_point V c t p o).trans (congrArg (reg2_H V c) (KLin.eq_ix2_of_val _ _ _ ?_ ?_).symm)
    · show win2_5.index t (0 : Fin 2) * 5000 + 1 * p.val = 5000 * t.val + p.val; rw [e0]; omega
    · show win2_5.index t (1 : Fin 2) * 128 + 1 * o.val = o.val; rw [e1]; omega
  · obtain ⟨t, ht⟩ : ∃ t : Fin cfg2.N, t.val = (i 0).val / 5000 :=
      ⟨⟨_, by have := idx2_lt0 i; rw [show cfg2.N = 10 from N_2]; omega⟩, rfl⟩
    obtain ⟨-, -, -, -, -, -, -, -, -, -, e0, e1, -⟩ := reg2_idx t
    refine ⟨t, flush2_5 t, ?_⟩
    show i ∈ ((View.whole main_v58_0).slice (win2_5.rect t)).set
    rw [View.set_slice_whole]
    refine KLin.mem_rows2 i (by decide) ?_ ?_
    · show win2_5.index t (0 : Fin 2) * 5000 = _; rw [e0, ht]
    · show win2_5.index t (1 : Fin 2) * 128 = 0; rw [e1]

theorem final2_6 (c : Dev nD) :
    (dat2 (F := Ideal) V c).arrAt 6 cfg2.N
      = KT.bsum128 (KT.lin1 (V c main_v56) (V c main_v43) (V c main_v14) (V c main_v15) (V c main_v57)) := by
  refine (dat2 (F := Ideal) V c).arrAt_eq_of_cover 6 (KT.bsum128 (reg2_H V c)) (fun t _ => ?_) fun (i : S10x1x128.Idx) => ?_
  · obtain ⟨-, -, -, -, -, -, -, -, -, -, -, -, e0, e1, e2, -⟩ := reg2_idx t
    show (cfg2.win 6).cut (grid2.coords t) ((dat2 V c).after 6 t) = _
    rw [after2_6, (reg2_out _ _ _ _ _).2.1]
    funext j
    obtain ⟨o, rfl⟩ : ∃ o : Fin 128, j = ix3 (0 : Fin 1) (0 : Fin 1) o := ⟨j 2, KLin.eq_ix3_11 j⟩
    rw [View.read_apply]
    unfold k2_pay2
    refine (KLin.colsum_apply _ _ _ _ o).trans (Eq.trans ?_
      (congrArg (KT.bsum128 (reg2_H V c)) (KLin.eq_ix3_of_val _ (reg2_blockOf t) (0 : Fin 1) o ?_ ?_ ?_).symm))
    · exact Finset.sum_congr rfl fun p _ => reg2_pay1_point V c t p o
    · show win2_6.index t (0 : Fin 3) * 1 + 1 * 0 = t.val; rw [e0]; omega
    · show win2_6.index t (1 : Fin 3) * 1 + 1 * 0 = 0; rw [e1]
    · show win2_6.index t (2 : Fin 3) * 128 + 1 * o.val = o.val; rw [e2]; omega
  · obtain ⟨t, ht⟩ : ∃ t : Fin cfg2.N, t.val = (i 0).val := ⟨⟨(i 0).val, lt_of_lt_of_eq (i 0).isLt N_2.symm⟩, rfl⟩
    obtain ⟨-, -, -, -, -, -, -, -, -, -, -, -, e0, e1, e2, -⟩ := reg2_idx t
    refine ⟨t, flush2_6 t, ?_⟩
    show i ∈ ((View.whole main_v58_1).slice (win2_6.rect t)).set
    rw [View.set_slice_whole]
    refine KLin.mem_lead3 i ?_ ?_ ?_
    · show win2_6.index t (0 : Fin 3) * 1 = _; rw [e0, ht, Nat.mul_one]
    · show win2_6.index t (1 : Fin 3) * 1 = 0; rw [e1]
    · show win2_6.index t (2 : Fin 3) * 128 = 0; rw [e2]

theorem final2_7 (c : Dev nD) :
    (dat2 (F := Ideal) V c).arrAt 7 cfg2.N
      = KT.bsumsq128 (KT.lin1 (V c main_v56) (V c main_v43) (V c main_v14) (V c main_v15) (V c main_v57)) := by
  refine (dat2 (F := Ideal) V c).arrAt_eq_of_cover 7 (KT.bsumsq128 (reg2_H V c)) (fun t _ => ?_) fun (i : S10x1x128.Idx) => ?_
  · obtain ⟨-, -, -, -, -, -, -, -, -, -, -, -, -, -, -, e0, e1, e2⟩ := reg2_idx t
    show (cfg2.win 7).cut (grid2.coords t) ((dat2 V c).after 7 t) = _
    rw [after2_7, (reg2_out _ _ _ _ _).2.2]
    funext j
    obtain ⟨o, rfl⟩ : ∃ o : Fin 128, j = ix3 (0 : Fin 1) (0 : Fin 1) o := ⟨j 2, KLin.eq_ix3_11 j⟩
    rw [View.read_apply]
    unfold k2_pay3
    refine (KLin.colsum_apply _ _ _ _ o).trans (Eq.trans ?_
      (congrArg (KT.bsumsq128 (reg2_H V c)) (KLin.eq_ix3_of_val _ (reg2_blockOf t) (0 : Fin 1) o ?_ ?_ ?_).symm))
    · exact Finset.sum_congr rfl fun p _ => congrArg (fun z => z * z) (reg2_pay1_point V c t p o)
    · show win2_7.index t (0 : Fin 3) * 1 + 1 * 0 = t.val; rw [e0]; omega
    · show win2_7.index t (1 : Fin 3) * 1 + 1 * 0 = 0; rw [e1]
    · show win2_7.index t (2 : Fin 3) * 128 + 1 * o.val = o.val; rw [e2]; omega
  · obtain ⟨t, ht⟩ : ∃ t : Fin cfg2.N, t.val = (i 0).val := ⟨⟨(i 0).val, lt_of_lt_of_eq (i 0).isLt N_2.symm⟩, rfl⟩
    obtain ⟨-, -, -, -, -, -, -, -, -, -, -, -, -, -, -, e0, e1, e2⟩ := reg2_idx t
    refine ⟨t, flush2_7 t, ?_⟩
    show i ∈ ((View.whole main_v58_2).slice (win2_7.rect t)).set
    rw [View.set_slice_whole]
    refine KLin.mem_lead3 i ?_ ?_ ?_
    · show win2_7.index t (0 : Fin 3) * 1 = _; rw [e0, ht, Nat.mul_one]
    · show win2_7.index t (1 : Fin 3) * 1 = 0; rw [e1]
    · show win2_7.index t (2 : Fin 3) * 128 = 0; rw [e2]

end Cert.KernelIdeal.KReg

end
-- ==== Proof.KChainB.lean ====
import proofs.«408482_j65996467470993_2_alg».proof.Proof.Gen.KernelIdeal
import Idealize.ShloMosaic.PureOps.Ideal

noncomputable section

namespace Cert.KernelIdeal.KC

open Idealize.ShloMosaic
open Cert.KernelIdeal Cert.KernelIdeal.Facts₀

def aggOf256 (feat : FVec Ideal S50000x256 .f32) (s1 d1 : IVec S800000 32) (inv : FVec Ideal S50000 .f32) :
    FVec Ideal S50000x256 .f32 :=
  mulf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 d1)
      (Host.gather gather_S50000x256_S800000x1_S800000x256_1_0_n_n_0_1_1256 feat
        (broadcastInDim S800000x1 ![0] bcast_S800000_S800000x1_0
          (select
            (cmpi .slt s1 (broadcastInDim S800000 ![] bcast_S_S800000 (constantI S_ 32 0#32)))
            (addi s1 (broadcastInDim S800000 ![] bcast_S_S800000 (constantI S_ 32 50000#32)))
            s1))))
    (broadcastInDim S50000x256 ![0, 1] bcast_S50000x1_S50000x256_0_1
      (broadcastInDim S50000x1 ![0] bcast_S50000_S50000x1_0 inv))

end Cert.KernelIdeal.KC

end
-- ==== Proof.KHostB.lean ====
import proofs.«408482_j65996467470993_2_alg».proof.Proof.Gen.KernelIdeal.Frame
import proofs.«408482_j65996467470993_2_alg».proof.Proof.KTerms
import proofs.«408482_j65996467470993_2_alg».proof.Proof.KReg2
import proofs.«408482_j65996467470993_2_alg».proof.Proof.KChainB

noncomputable section

namespace Cert.KernelIdeal.KHost

open Idealize.ShloMosaic Idealize.ShloMosaic.TcCoe Idealize.SL.Sem
open Cert.KernelIdeal Cert.KernelIdeal.Gen Cert.KernelIdeal.Facts₀

variable (m : (ℓ : Loc nD τ sig) → Buf (Elt Ideal) ℓ) (ρ : Dev nD → PrngReg)

local macro "host_keeps" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The third region writes none of these arguments, and the host stretch before it does not either. -/
theorem W6_keep (c : Dev nD) : ∀ r ∈ [main_arg2, main_arg11, main_arg12, main_arg13, main_arg14, main_arg15, main_arg16],
    W6 m ρ c (Proc.devRef .tc r) = W4 m ρ c (Proc.devRef .tc r) := List.forall_iff_forall_mem.mp (by
  simp only [List.Forall]
  repeat' apply And.intro
  all_goals exact (W6_of_ne m ρ c _ (by decide)).trans (by host_keeps hostOps2))
theorem W5_v43 (c : Dev nD) : W5 m ρ c (Proc.devRef .tc main_v43) = W4 m ρ c (Proc.devRef .tc main_v43) := by
  host_keeps hostOps2

theorem W5_v14 (c : Dev nD) : W5 m ρ c (Proc.devRef .tc main_v14) = W4 m ρ c (Proc.devRef .tc main_v14) := by
  host_keeps hostOps2

theorem W5_v15 (c : Dev nD) : W5 m ρ c (Proc.devRef .tc main_v15) = W4 m ρ c (Proc.devRef .tc main_v15) := by
  host_keeps hostOps2

theorem W5_v57 (c : Dev nD) (bl : FVec Ideal S128 .f32) (h9 : W4 m ρ c (Proc.devRef .tc main_arg9) = bl) :
    W5 m ρ c (Proc.devRef .tc main_v57) = shapeCast S1x128 bl Facts₀.shapeCasts_S128_S1x128 := by
  show StableHlo.after hostOps2 (W4 m ρ c) (Proc.devRef .tc main_v57) = _
  after_results
  rw [h9]
  rfl

theorem W5_v56 (c : Dev nD) (Y0 : FVec Ideal S50000x256 .f32) (s1 d1 : IVec S800000 32) (inv : FVec Ideal S50000 .f32)
    (h43 : W4 m ρ c (Proc.devRef .tc main_v43) = Y0) (h1 : W4 m ρ c (Proc.devRef .tc main_v1) = s1)
    (h3 : W4 m ρ c (Proc.devRef .tc main_v3) = d1) (h11 : W4 m ρ c (Proc.devRef .tc main_v11) = inv) :
    W5 m ρ c (Proc.devRef .tc main_v56) = KC.aggOf256 Y0 s1 d1 inv := by
  show StableHlo.after hostOps2 (W4 m ρ c) (Proc.devRef .tc main_v56) = _
  after_results_simp
  rw [h43, h1, h3, h11]
  rfl

theorem W6_vals (c : Dev nD) (Y0 : FVec Ideal S50000x256 .f32) (s1 d1 : IVec S800000 32) (inv : FVec Ideal S50000 .f32)
    (wlT wrT : FVec Ideal S256x128 .f32) (bl : FVec Ideal S128 .f32)
    (h43 : W4 m ρ c (Proc.devRef .tc main_v43) = Y0) (h1 : W4 m ρ c (Proc.devRef .tc main_v1) = s1)
    (h3 : W4 m ρ c (Proc.devRef .tc main_v3) = d1) (h11 : W4 m ρ c (Proc.devRef .tc main_v11) = inv)
    (h14 : W4 m ρ c (Proc.devRef .tc main_v14) = wlT) (h15 : W4 m ρ c (Proc.devRef .tc main_v15) = wrT)
    (h9 : W4 m ρ c (Proc.devRef .tc main_arg9) = bl) :
    W6 m ρ c (Proc.devRef .tc main_v58_0)
        = KT.lin1 (KC.aggOf256 Y0 s1 d1 inv) Y0 wlT wrT (shapeCast S1x128 bl Facts₀.shapeCasts_S128_S1x128)
      ∧ W6 m ρ c (Proc.devRef .tc main_v58_1)
        = KT.bsum128 (KT.lin1 (KC.aggOf256 Y0 s1 d1 inv) Y0 wlT wrT (shapeCast S1x128 bl Facts₀.shapeCasts_S128_S1x128))
      ∧ W6 m ρ c (Proc.devRef .tc main_v58_2)
        = KT.bsumsq128 (KT.lin1 (KC.aggOf256 Y0 s1 d1 inv) Y0 wlT wrT (shapeCast S1x128 bl Facts₀.shapeCasts_S128_S1x128)) := by
  have e56 : V5 m ρ c main_v56 = KC.aggOf256 Y0 s1 d1 inv := W5_v56 m ρ c Y0 s1 d1 inv h43 h1 h3 h11
  have e57 : V5 m ρ c main_v57 = shapeCast S1x128 bl Facts₀.shapeCasts_S128_S1x128 := W5_v57 m ρ c bl h9
  have e43 : V5 m ρ c main_v43 = Y0 := (W5_v43 m ρ c).trans h43
  have e14 : V5 m ρ c main_v14 = wlT := (W5_v14 m ρ c).trans h14
  have e15 : V5 m ρ c main_v15 = wrT := (W5_v15 m ρ c).trans h15
  refine ⟨?_, ?_, ?_⟩
  · refine ((W6_arr m ρ c 5).trans (KReg.final2_5 (V5 m ρ) c)).trans ?_
    rw [e56, e57, e43, e14, e15]
  · refine ((W6_arr m ρ c 6).trans (KReg.final2_6 (V5 m ρ) c)).trans ?_
    rw [e56, e57, e43, e14, e15]
  · refine ((W6_arr m ρ c 7).trans (KReg.final2_7 (V5 m ρ) c)).trans ?_
    rw [e56, e57, e43, e14, e15]

end Cert.KernelIdeal.KHost

end
-- ==== Proof.KReg3.lean ====
import proofs.«408482_j65996467470993_2_alg».proof.Proof.Gen.KernelIdeal.Frame
import proofs.«408482_j65996467470993_2_alg».proof.Proof.KRegRow

noncomputable section

namespace Cert.KernelIdeal.KReg

open Idealize.ShloMosaic Idealize.ShloMosaic.TcCoe Idealize.SL.Sem
open Cert.KernelIdeal Cert.KernelIdeal.Gen
open Idealize.ShloMosaic.ValueIdx

theorem reg3_idx : ∀ t : Fin cfg3.N,
    win3_0.index t (0 : Fin 2) = t.val ∧ win3_0.index t (1 : Fin 2) = 0
    ∧ (∀ a, win3_1.index t a = 0) ∧ (∀ a, win3_2.index t a = 0) ∧ (∀ a, win3_3.index t a = 0) ∧ (∀ a, win3_4.index t a = 0)
    ∧ win3_5.index t (0 : Fin 2) = t.val ∧ win3_5.index t (1 : Fin 2) = 0
    ∧ win3_6.index t (0 : Fin 3) = t.val ∧ win3_6.index t (1 : Fin 3) = 0 ∧ win3_6.index t (2 : Fin 3) = 0 :=
  (by decide +kernel : ∀ t : Fin grid3.N, _)

variable (V : (c : Dev nD) → (b : Ref sig .tc) → Buf (Elt Ideal) ((c : Thread nD τ).loc b))

theorem reg3_rows (c : Dev nD) (t : Fin cfg3.N) :
    (iblk3 V c 1 t : Vec Ideal S1x128 .f32) = V c main_v61 ∧ (iblk3 V c 2 t : Vec Ideal S1x128 .f32) = V c main_v68
    ∧ (iblk3 V c 3 t : Vec Ideal S1x128 .f32) = V c main_v70 ∧ (iblk3 V c 4 t : Vec Ideal S1x128 .f32) = V c main_v71 := by
  obtain ⟨-, -, e1, e2, e3, e4, -⟩ := reg3_idx t
  unfold iblk3
  refine ⟨funext fun x => ?_, funext fun x => ?_, funext fun x => ?_, funext fun x => ?_⟩ <;> rw [View.read_apply]
  · show V c main_v61 _ = V c main_v61 x
    exact congrArg _ (funext fun a => Fin.ext (win3_1.rect_emb_val_of_index_zero t a (e1 a) x))
  · show V c main_v68 _ = V c main_v68 x
    exact congrArg _ (funext fun a => Fin.ext (win3_2.rect_emb_val_of_index_zero t a (e2 a) x))
  · show V c main_v70 _ = V c main_v70 x
    exact congrArg _ (funext fun a => Fin.ext (win3_3.rect_emb_val_of_index_zero t a (e3 a) x))
  · show V c main_v71 _ = V c main_v71 x
    exact congrArg _ (funext fun a => Fin.ext (win3_4.rect_emb_val_of_index_zero t a (e4 a) x))

/-- The two row-blocked operands' blocks, read at an index, are their arrays at the block's own rows. -/
theorem reg3_reads (c : Dev nD) (t : Fin cfg3.N) :
    (∀ p q, (iblk3 V c 0 t : Vec Ideal S5000x128 .f32) (ix2 p q)
        = (V c main_v58_0 : KT.A2 50000 128) (ix2 (KT.row (t.cast N_3) p) q))
    ∧ ∀ p g, (iblk3 V c 5 t : Vec Ideal S5000x64 .bf16) (ix2 p g)
        = (V c main_v69 : KT.A2 50000 64) (ix2 (KT.row (t.cast N_3) p) g) := by
  obtain ⟨a0, a1, -, -, -, -, b0, b1, -⟩ := reg3_idx t
  unfold iblk3
  simp only [View.read_apply]
  refine ⟨fun p q => ?_, fun p g => ?_⟩
  · show V c main_v58_0 _ = V c main_v58_0 _
    refine congrArg _ (KLin.eq_ix2_of_val _ _ _ ?_ ?_)
    · show win3_0.index t (0 : Fin 2) * 5000 + 1 * p.val = 5000 * t.val + p.val; rw [a0]; omega
    · show win3_0.index t (1 : Fin 2) * 128 + 1 * q.val = q.val; rw [a1]; omega
  · show V c main_v69 _ = V c main_v69 _
    refine congrArg _ (KLin.eq_ix2_of_val _ _ _ ?_ ?_)
    · show win3_5.index t (0 : Fin 2) * 5000 + 1 * p.val = 5000 * t.val + p.val; rw [b0]; omega
    · show win3_5.index t (1 : Fin 2) * 64 + 1 * g.val = g.val; rw [b1]; omega

theorem reg3_pay (c : Dev nD) (t : Fin cfg3.N) (g : Fin 64) (d : Fin 128) :
    k3_pay1 (iblk3 V c 0 t) (iblk3 V c 2 t) (iblk3 V c 1 t) (iblk3 V c 3 t) (iblk3 V c 4 t) (iblk3 V c 5 t) (ix3 (0 : Fin 1) g d)
      = KT.pool (V c main_v58_0) (V c main_v61) (V c main_v68) (V c main_v70) (V c main_v71) (V c main_v69)
          (ix3 (t.cast N_3) g d) := by
  obtain ⟨r1, r2, r3, r4⟩ := reg3_rows V c t
  obtain ⟨h0, h5⟩ := reg3_reads V c t
  rw [r1, r2, r3, r4]
  show _ = KT.poolAt _ _ _ _ _ _ (t.cast N_3) g d
  unfold k3_pay1 KT.poolAt
  simp only [shapeCast_self]
  refine (KLin.pool_apply _ rfl _ _ _ _ g d).trans (Finset.sum_congr rfl fun p _ => ?_)
  rw [truncf_apply, KLin.bnrelu_apply _ _ _ _ _ _ (V c main_v58_0) (KT.row (t.cast N_3)) h0, h5]

theorem final3_6 (c : Dev nD) :
    (dat3 (F := Ideal) V c).arrAt 6 cfg3.N
      = KT.pool (V c main_v58_0) (V c main_v61) (V c main_v68) (V c main_v70) (V c main_v71) (V c main_v69) := by
  refine (dat3 (F := Ideal) V c).arrAt_eq_of_cover 6 _ (fun t _ => ?_) fun (i : S10x64x128.Idx) => ?_
  · obtain ⟨-, -, -, -, -, -, -, -, e0, e1, e2⟩ := reg3_idx t
    show (cfg3.win 6).cut (grid3.coords t) ((dat3 V c).after 6 t) = _
    rw [after3_6]
    unfold out3_6
    rw [View.canon_unit_zero KLin.hz3]
    simp only [View.ld_unit_zero (S := S5000x128) KLin.hz2, View.ld_unit_zero (S := S1x128) KLin.hz2,
      View.ld_unit_zero (S := S5000x64) KLin.hz2]
    funext j
    obtain ⟨z, g, d, rfl⟩ : ∃ (z : Fin 1) (g : Fin 64) (d : Fin 128), j = ix3 z g d := ⟨j 0, j 1, j 2, eq_ix3 j⟩
    obtain rfl : z = 0 := Subsingleton.elim _ _
    rw [View.read_apply]
    refine (reg3_pay V c t g d).trans
      (congrArg (KT.pool (V c main_v58_0) (V c main_v61) (V c main_v68) (V c main_v70) (V c main_v71) (V c main_v69))
        (KLin.eq_ix3_of_val _ (t.cast N_3) g d ?_ ?_ ?_).symm)
    · show win3_6.index t (0 : Fin 3) * 1 + 1 * 0 = t.val; rw [e0]; omega
    · show win3_6.index t (1 : Fin 3) * 64 + 1 * g.val = g.val; rw [e1]; omega
    · show win3_6.index t (2 : Fin 3) * 128 + 1 * d.val = d.val; rw [e2]; omega
  · obtain ⟨t, ht⟩ : ∃ t : Fin cfg3.N, t.val = (i 0).val := ⟨⟨(i 0).val, lt_of_lt_of_eq (i 0).isLt N_3.symm⟩, rfl⟩
    obtain ⟨-, -, -, -, -, -, -, -, e0, e1, e2⟩ := reg3_idx t
    refine ⟨t, flush3_6 t, ?_⟩
    show i ∈ ((View.whole main_v72).slice (win3_6.rect t)).set
    rw [View.set_slice_whole]
    refine KLin.mem_lead i ?_ ?_ ?_
    · show win3_6.index t (0 : Fin 3) * 1 = _; rw [e0, ht, Nat.mul_one]
    · show win3_6.index t (1 : Fin 3) * 64 = 0; rw [e1]
    · show win3_6.index t (2 : Fin 3) * 128 = 0; rw [e2]

end Cert.KernelIdeal.KReg

end
-- ==== Proof.KChainC.lean ====
import proofs.«408482_j65996467470993_2_alg».proof.Proof.Gen.KernelIdeal.Frame
import proofs.«408482_j65996467470993_2_alg».proof.Proof.KTerms

noncomputable section

namespace Cert.KernelIdeal.KC

open Idealize.ShloMosaic Idealize.SL.Sem
open Cert.KernelIdeal Cert.KernelIdeal.Gen

def mean1 (h : FVec Ideal S50000x128 .f32) : FVec Ideal S1x128 .f32 :=
  Host.divf (F := Ideal)
    (Host.reduceAdd (F := Ideal) (KT.bsum128 h : FVec Ideal S10x1x128 .f32) (constant (F := Ideal) S_ .f32 0x00000000#32)
      reducesTo_S10x1x128_S1x128_d0 h_S_)
    (broadcastInDim S1x128 ![] bcast_S_S1x128 (constant (F := Ideal) S_ .f32 0x47435000#32))

def var1 (h : FVec Ideal S50000x128 .f32) : FVec Ideal S1x128 .f32 :=
  maximumf (F := Ideal)
    (subf (F := Ideal)
      (Host.divf (F := Ideal)
        (Host.reduceAdd (F := Ideal) (KT.bsumsq128 h : FVec Ideal S10x1x128 .f32) (constant (F := Ideal) S_ .f32 0x00000000#32)
          reducesTo_S10x1x128_S1x128_d0 h_S_)
        (broadcastInDim S1x128 ![] bcast_S_S1x128 (constant (F := Ideal) S_ .f32 0x47435000#32)))
      (mulf (F := Ideal) (mean1 h) (mean1 h)))
    (broadcastInDim S1x128 ![] bcast_S_S1x128 (constant (F := Ideal) S_ .f32 0x00000000#32))

def onehot (bt : IVec S50000 32) : FVec Ideal S50000x64 .bf16 :=
  uitofp (F := Ideal) .bf16
    (cmpi .eq
      (broadcastInDim S50000x64 ![0, 1] bcast_S50000x1_S50000x64_0_1 (broadcastInDim S50000x1 ![0] bcast_S50000_S50000x1_0 bt))
      (broadcastInDim S50000x64 ![0, 1] bcast_S1x64_S50000x64_0_1 (iotaInDim S1x64 32 1)))

def poolp (h : FVec Ideal S50000x128 .f32) (w b : FVec Ideal S128 .f32) (bt : IVec S50000 32) : FVec Ideal S10x64x128 .f32 :=
  KT.pool h (mean1 h) (var1 h)
    (shapeCast S1x128 w shapeCasts_S128_S1x128) (shapeCast S1x128 b shapeCasts_S128_S1x128) (onehot bt)

def mcnt (bt : IVec S50000 32) : FVec Ideal S64 .f32 :=
  maximumf (F := Ideal)
    (Host.scatterAdd (F := Ideal) scatter_S64_S50000x1_S50000_n_0_0_1
      (broadcastInDim S64 ![] bcast_S_S64 (constant (F := Ideal) S_ .f32 0x00000000#32))
      (broadcastInDim S50000x1 ![0] bcast_S50000_S50000x1_0 bt)
      (broadcastInDim S50000 ![] bcast_S_S50000 (constant (F := Ideal) S_ .f32 0x3F800000#32)))
    (broadcastInDim S64 ![] bcast_S_S64 (constant (F := Ideal) S_ .f32 0x3F800000#32))

def emb (h : FVec Ideal S50000x128 .f32) (w b : FVec Ideal S128 .f32) (bt : IVec S50000 32) : FVec Ideal S64x128 .f32 :=
  Host.divf (F := Ideal)
    (Host.reduceAdd (F := Ideal) (poolp h w b bt) (constant (F := Ideal) S_ .f32 0x00000000#32)
      reducesTo_S10x64x128_S64x128_d0 h_S_)
    (broadcastInDim S64x128 ![0, 1] bcast_S64x1_S64x128_0_1 (broadcastInDim S64x1 ![0] bcast_S64_S64x1_0 (mcnt bt)))

def tail (e : FVec Ideal S64x128 .f32) (cw1 : FVec Ideal S128x128 .f32) (cb1 : FVec Ideal S128 .f32)
    (cw2 : FVec Ideal S2x128 .f32) (cb2 : FVec Ideal S2 .f32) : FVec Ideal S64x2 .f32 :=
  addf (F := Ideal)
    (Host.dotGeneral (F := Ideal) dot_S64x128_S128x2_S64x2_1_0_0_1_n_n none
      (maximumf (F := Ideal)
        (addf (F := Ideal)
          (Host.dotGeneral (F := Ideal) dot_S64x128_S128x128_S64x128_1_0_0_1_n_n none e
            (transpose S128x128 [1, 0] cw1 transposes_S128x128_S128x128_1_0))
          (broadcastInDim S64x128 ![0, 1] bcast_S1x128_S64x128_0_1 (broadcastInDim S1x128 ![1] bcast_S128_S1x128_1 cb1)))
        (broadcastInDim S64x128 ![] bcast_S_S64x128 (constant (F := Ideal) S_ .f32 0x00000000#32)))
      (transpose S128x2 [1, 0] cw2 transposes_S2x128_S128x2_1_0))
    (broadcastInDim S64x2 ![0, 1] bcast_S1x2_S64x2_0_1 (broadcastInDim S1x2 ![1] bcast_S2_S1x2_1 cb2))

end Cert.KernelIdeal.KC

end
-- ==== Proof.KHostC.lean ====
import proofs.«408482_j65996467470993_2_alg».proof.Proof.Gen.KernelIdeal.Frame
import proofs.«408482_j65996467470993_2_alg».proof.Proof.KTerms
import proofs.«408482_j65996467470993_2_alg».proof.Proof.KReg3
import proofs.«408482_j65996467470993_2_alg».proof.Proof.KChainC

noncomputable section

namespace Cert.KernelIdeal.KHost

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

macro "open_W9" : tactic =>
  `(tactic| (show StableHlo.after hostOps3_2 (StableHlo.after hostOps3_1 (StableHlo.after hostOps3 (W6 _ _ _))) _ = _
             after_results))

theorem W9_v58_0 (c : Dev nD) (H1 : FVec Ideal S50000x128 .f32)
    (h0 : W6 m ρ c (Proc.devRef .tc main_v58_0) = H1) :
    V9 m ρ c main_v58_0 = H1 := by
  open_W9; exact h0

theorem W9_v61 (c : Dev nD) (H1 : FVec Ideal S50000x128 .f32)
    (h1 : W6 m ρ c (Proc.devRef .tc main_v58_1) = KT.bsum128 H1) :
    V9 m ρ c main_v61 = KC.mean1 H1 := by
  open_W9; rw [h1]; rfl

theorem W9_v68 (c : Dev nD) (H1 : FVec Ideal S50000x128 .f32)
    (h1 : W6 m ρ c (Proc.devRef .tc main_v58_1) = KT.bsum128 H1)
    (h2 : W6 m ρ c (Proc.devRef .tc main_v58_2) = KT.bsumsq128 H1) :
    V9 m ρ c main_v68 = KC.var1 H1 := by
  open_W9; rw [h1, h2]; rfl

theorem W9_v69 (c : Dev nD) (bt : IVec S50000 32)
    (hbt : W6 m ρ c (Proc.devRef .tc main_arg2) = bt) :
    V9 m ρ c main_v69 = KC.onehot bt := by
  open_W9
  simp only [StableHlo.TRef.ofBuf, StableHlo.TRef.toBuf, cast_eq]
  rw [hbt]; rfl

theorem W9_v70 (c : Dev nD) (w : FVec Ideal S128 .f32)
    (h11 : W6 m ρ c (Proc.devRef .tc main_arg11) = w) :
    V9 m ρ c main_v70 = shapeCast S1x128 w shapeCasts_S128_S1x128 := by
  open_W9; rw [h11]; rfl

theorem W9_v71 (c : Dev nD) (b : FVec Ideal S128 .f32)
    (h12 : W6 m ρ c (Proc.devRef .tc main_arg12) = b) :
    V9 m ρ c main_v71 = shapeCast S1x128 b shapeCasts_S128_S1x128 := by
  open_W9; rw [h12]; rfl

macro "keep_W10" r:ident : tactic =>
  `(tactic| (refine (W10_of_ne _ _ _ $r (by decide)).trans ?_
             show StableHlo.after hostOps3_2 (StableHlo.after hostOps3_1 (StableHlo.after hostOps3 (W6 _ _ _))) _ = _
             after_results))

theorem W10_arg2 (c : Dev nD) (bt : IVec S50000 32) (hbt : W6 m ρ c (Proc.devRef .tc main_arg2) = bt) :
    W10 m ρ c (Proc.devRef .tc main_arg2) = bt := by
  keep_W10 main_arg2; exact hbt
theorem W10_arg13 (c : Dev nD) (cw1 : FVec Ideal S128x128 .f32) (h13 : W6 m ρ c (Proc.devRef .tc main_arg13) = cw1) :
    W10 m ρ c (Proc.devRef .tc main_arg13) = cw1 := by
  keep_W10 main_arg13; exact h13
theorem W10_arg14 (c : Dev nD) (cb1 : FVec Ideal S128 .f32) (h14 : W6 m ρ c (Proc.devRef .tc main_arg14) = cb1) :
    W10 m ρ c (Proc.devRef .tc main_arg14) = cb1 := by
  keep_W10 main_arg14; exact h14
theorem W10_arg15 (c : Dev nD) (cw2 : FVec Ideal S2x128 .f32) (h15 : W6 m ρ c (Proc.devRef .tc main_arg15) = cw2) :
    W10 m ρ c (Proc.devRef .tc main_arg15) = cw2 := by
  keep_W10 main_arg15; exact h15
theorem W10_arg16 (c : Dev nD) (cb2 : FVec Ideal S2 .f32) (h16 : W6 m ρ c (Proc.devRef .tc main_arg16) = cb2) :
    W10 m ρ c (Proc.devRef .tc main_arg16) = cb2 := by
  keep_W10 main_arg16; exact h16

theorem W10_v72 (c : Dev nD) (H1 : FVec Ideal S50000x128 .f32) (bt : IVec S50000 32) (w b : FVec Ideal S128 .f32)
    (h0 : W6 m ρ c (Proc.devRef .tc main_v58_0) = H1)
    (h1 : W6 m ρ c (Proc.devRef .tc main_v58_1) = KT.bsum128 H1)
    (h2 : W6 m ρ c (Proc.devRef .tc main_v58_2) = KT.bsumsq128 H1)
    (hbt : W6 m ρ c (Proc.devRef .tc main_arg2) = bt)
    (h11 : W6 m ρ c (Proc.devRef .tc main_arg11) = w)
    (h12 : W6 m ρ c (Proc.devRef .tc main_arg12) = b) :
    W10 m ρ c (Proc.devRef .tc main_v72) = KC.poolp H1 w b bt := by
  refine ((W10_arr m ρ c 6).trans (KReg.final3_6 (V9 m ρ) c)).trans ?_
  rw [W9_v58_0 m ρ c H1 h0, W9_v61 m ρ c H1 h1, W9_v68 m ρ c H1 h1 h2, W9_v69 m ρ c bt hbt,
    W9_v70 m ρ c w h11, W9_v71 m ρ c b h12]
  rfl

theorem W13_v82 (c : Dev nD) (P : FVec Ideal S10x64x128 .f32) (bt : IVec S50000 32)
    (h72 : W10 m ρ c (Proc.devRef .tc main_v72) = P)
    (hbt : W10 m ρ c (Proc.devRef .tc main_arg2) = bt) :
    W13 m ρ c (Proc.devRef .tc main_v82)
      = Host.divf (F := Ideal)
          (Host.reduceAdd (F := Ideal) P (constant (F := Ideal) S_ .f32 0x00000000#32) reducesTo_S10x64x128_S64x128_d0 h_S_)
          (broadcastInDim S64x128 ![0, 1] bcast_S64x1_S64x128_0_1 (broadcastInDim S64x1 ![0] bcast_S64_S64x1_0 (KC.mcnt bt))) := by
  show StableHlo.after hostOps4_2 (StableHlo.after hostOps4_1 (StableHlo.after hostOps4 (W10 _ _ _))) _ = _
  after_results
  rw [h72, hbt]; rfl

theorem W12_v88 (c : Dev nD) (P : FVec Ideal S10x64x128 .f32) (bt : IVec S50000 32)
    (cw1 : FVec Ideal S128x128 .f32) (cb1 : FVec Ideal S128 .f32)
    (h72 : W10 m ρ c (Proc.devRef .tc main_v72) = P)
    (hbt : W10 m ρ c (Proc.devRef .tc main_arg2) = bt)
    (h13 : W10 m ρ c (Proc.devRef .tc main_arg13) = cw1)
    (h14 : W10 m ρ c (Proc.devRef .tc main_arg14) = cb1) :
    W12 m ρ c (Proc.devRef .tc main_v88)
      = maximumf (F := Ideal)
          (addf (F := Ideal)
            (Host.dotGeneral (F := Ideal) dot_S64x128_S128x128_S64x128_1_0_0_1_n_n none
              (Host.divf (F := Ideal)
                (Host.reduceAdd (F := Ideal) P (constant (F := Ideal) S_ .f32 0x00000000#32) reducesTo_S10x64x128_S64x128_d0 h_S_)
                (broadcastInDim S64x128 ![0, 1] bcast_S64x1_S64x128_0_1 (broadcastInDim S64x1 ![0] bcast_S64_S64x1_0 (KC.mcnt bt))))
              (transpose S128x128 [1, 0] cw1 transposes_S128x128_S128x128_1_0))
            (broadcastInDim S64x128 ![0, 1] bcast_S1x128_S64x128_0_1 (broadcastInDim S1x128 ![1] bcast_S128_S1x128_1 cb1)))
          (broadcastInDim S64x128 ![] bcast_S_S64x128 (constant (F := Ideal) S_ .f32 0x00000000#32)) := by
  show StableHlo.after hostOps4_1 (StableHlo.after hostOps4 (W10 _ _ _)) _ = _
  after_results_simp
  simp only [StableHlo.TRef.ofBuf, StableHlo.TRef.toBuf, cast_eq]
  rw [h72, hbt, h13, h14]; rfl

theorem W12_arg15 (c : Dev nD) (cw2 : FVec Ideal S2x128 .f32) (h15 : W10 m ρ c (Proc.devRef .tc main_arg15) = cw2) :
    W12 m ρ c (Proc.devRef .tc main_arg15) = cw2 := by
  show StableHlo.after hostOps4_1 (StableHlo.after hostOps4 (W10 _ _ _)) _ = _
  after_results; exact h15
theorem W12_arg16 (c : Dev nD) (cb2 : FVec Ideal S2 .f32) (h16 : W10 m ρ c (Proc.devRef .tc main_arg16) = cb2) :
    W12 m ρ c (Proc.devRef .tc main_arg16) = cb2 := by
  show StableHlo.after hostOps4_1 (StableHlo.after hostOps4 (W10 _ _ _)) _ = _
  after_results; exact h16

theorem W13_v93 (c : Dev nD) (A : FVec Ideal S64x128 .f32) (cw2 : FVec Ideal S2x128 .f32) (cb2 : FVec Ideal S2 .f32)
    (h88 : W12 m ρ c (Proc.devRef .tc main_v88) = A)
    (h15 : W12 m ρ c (Proc.devRef .tc main_arg15) = cw2)
    (h16 : W12 m ρ c (Proc.devRef .tc main_arg16) = cb2) :
    W13 m ρ c (Proc.devRef .tc main_v93)
      = addf (F := Ideal)
          (Host.dotGeneral (F := Ideal) dot_S64x128_S128x2_S64x2_1_0_0_1_n_n none A
            (transpose S128x2 [1, 0] cw2 transposes_S2x128_S128x2_1_0))
          (broadcastInDim S64x2 ![0, 1] bcast_S1x2_S64x2_0_1 (broadcastInDim S1x2 ![1] bcast_S2_S1x2_1 cb2)) := by
  show StableHlo.after hostOps4_2 (W12 m ρ c) _ = _
  generalize W12 m ρ c = X at h88 h15 h16 ⊢
  after_results
  rw [h88, h15, h16]

theorem W13_vals (c : Dev nD) (H1 : FVec Ideal S50000x128 .f32) (bt : IVec S50000 32) (w b : FVec Ideal S128 .f32)
    (cw1 : FVec Ideal S128x128 .f32) (cb1 : FVec Ideal S128 .f32) (cw2 : FVec Ideal S2x128 .f32) (cb2 : FVec Ideal S2 .f32)
    (h0 : W6 m ρ c (Proc.devRef .tc main_v58_0) = H1)
    (h1 : W6 m ρ c (Proc.devRef .tc main_v58_1) = KT.bsum128 H1)
    (h2 : W6 m ρ c (Proc.devRef .tc main_v58_2) = KT.bsumsq128 H1)
    (hbt : W6 m ρ c (Proc.devRef .tc main_arg2) = bt)
    (h11 : W6 m ρ c (Proc.devRef .tc main_arg11) = w)
    (h12 : W6 m ρ c (Proc.devRef .tc main_arg12) = b)
    (h13 : W6 m ρ c (Proc.devRef .tc main_arg13) = cw1)
    (h14 : W6 m ρ c (Proc.devRef .tc main_arg14) = cb1)
    (h15 : W6 m ρ c (Proc.devRef .tc main_arg15) = cw2)
    (h16 : W6 m ρ c (Proc.devRef .tc main_arg16) = cb2) :
    W13 m ρ c (Proc.devRef .tc main_v93) = KC.tail (KC.emb H1 w b bt) cw1 cb1 cw2 cb2
      ∧ W13 m ρ c (Proc.devRef .tc main_v82) = KC.emb H1 w b bt := by
  have e72 := W10_v72 m ρ c H1 bt w b h0 h1 h2 hbt h11 h12
  have ebt := W10_arg2 m ρ c bt hbt
  exact ⟨W13_v93 m ρ c _ cw2 cb2
      (W12_v88 m ρ c (KC.poolp H1 w b bt) bt cw1 cb1 e72 ebt (W10_arg13 m ρ c cw1 h13) (W10_arg14 m ρ c cb1 h14))
      (W12_arg15 m ρ c cw2 (W10_arg15 m ρ c cw2 h15)) (W12_arg16 m ρ c cb2 (W10_arg16 m ρ c cb2 h16)),
    W13_v82 m ρ c (KC.poolp H1 w b bt) bt e72 ebt⟩

end Cert.KernelIdeal.KHost

end
-- ==== Proof.RChain.lean ====
import proofs.«408482_j65996467470993_2_alg».proof.Proof.Gen.ReferenceIdeal
import Idealize.ShloMosaic.PureOps.Ideal

noncomputable section

namespace Cert.ReferenceIdeal.RC

open Idealize.ShloMosaic Cert.ReferenceIdeal Cert.ReferenceIdeal.Facts₀

def srcRow (ei : IVec S2x800000 32) : IVec S800000 32 :=
  shapeCast S800000 (extractStridedSlice S1x800000 ![0, 0] ei slices_S2x800000_S1x800000_0_0) shapeCasts_S1x800000_S800000

def dstRow (ei : IVec S2x800000 32) : IVec S800000 32 :=
  shapeCast S800000 (extractStridedSlice S1x800000 ![1, 0] ei slices_S2x800000_S1x800000_1_0) shapeCasts_S1x800000_S800000

def srcIdx (ei : IVec S2x800000 32) : IVec S800000x1 32 :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32)))
      (srcRow ei))

def dstIdx (ei : IVec S2x800000 32) : IVec S800000x1 32 :=
  broadcastInDim S800000x1 ![0] bcast_S800000_S800000x1_0 (dstRow ei)

def mdeg (ei : IVec S2x800000 32) : FVec Ideal S50000 .f32 :=
  maximumf (F := Ideal)
    (Host.scatterAdd (F := Ideal) scatter_S50000_S800000x1_S800000_n_0_0_1
      (broadcastInDim S50000 ![] bcast_S_S50000 (constant (F := Ideal) S_ .f32 0x00000000#32)) (dstIdx ei)
      (broadcastInDim S800000 ![] bcast_S_S800000 (constant (F := Ideal) S_ .f32 0x3F800000#32)))
    (broadcastInDim S50000 ![] bcast_S_S50000 (constant (F := Ideal) S_ .f32 0x3F800000#32))

def agg0 (x : FVec Ideal S50000x128 .f32) (ei : IVec S2x800000 32) : FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32)) (dstIdx ei)
      (Host.gather gather_S50000x128_S800000x1_S800000x128_1_0_n_n_0_1_1128 x (srcIdx ei)))
    (broadcastInDim S50000x128 ![0, 1] bcast_S50000x1_S50000x128_0_1 (broadcastInDim S50000x1 ![0] bcast_S50000_S50000x1_0 (mdeg ei)))

def hpre0 (a x : FVec Ideal S50000x128 .f32) (wl : FVec Ideal S256x128 .f32) (bl : FVec Ideal S256 .f32) (wr : FVec Ideal S256x128 .f32) : FVec Ideal S50000x256 .f32 :=
  addf (F := Ideal)
    (addf (F := Ideal)
      (Host.dotGeneral (F := Ideal) dot_S50000x128_S128x256_S50000x256_1_0_0_1_n_n none a (transpose S128x256 [1, 0] wl transposes_S256x128_S128x256_1_0))
      (broadcastInDim S50000x256 ![0, 1] bcast_S1x256_S50000x256_0_1 (broadcastInDim S1x256 ![1] bcast_S256_S1x256_1 bl)))
    (Host.dotGeneral (F := Ideal) dot_S50000x128_S128x256_S50000x256_1_0_0_1_n_n none x (transpose S128x256 [1, 0] wr transposes_S256x128_S128x256_1_0))

def mean0 (h : FVec Ideal S50000x256 .f32) : FVec Ideal S256 .f32 :=
  Host.divf (F := Ideal) (Host.reduceAdd (F := Ideal) h (constant (F := Ideal) S_ .f32 0x00000000#32) reducesTo_S50000x256_S256_d0 h_S_)
    (broadcastInDim S256 ![] bcast_S_S256 (constant (F := Ideal) S_ .f32 0x47435000#32))

def cnt : FVec Ideal S_ .f32 :=
  subf (F := Ideal) (constant (F := Ideal) S_ .f32 0x47435000#32) (sitofp (F := Ideal) .f32 (constantI S_ 32 0#32))

def dev0 (h : FVec Ideal S50000x256 .f32) : FVec Ideal S50000x256 .f32 :=
  subf (F := Ideal) h
    (broadcastInDim S50000x256 ![0, 1] bcast_S1x256_S50000x256_0_1
      (Host.divf (F := Ideal)
        (broadcastInDim S1x256 ![1] bcast_S256_S1x256_1 (Host.reduceAdd (F := Ideal) h (constant (F := Ideal) S_ .f32 0x00000000#32) reducesTo_S50000x256_S256_d0 h_S_))
        (broadcastInDim S1x256 ![] bcast_S_S1x256 (constant (F := Ideal) S_ .f32 0x47435000#32))))

def var0 (h : FVec Ideal S50000x256 .f32) : FVec Ideal S256 .f32 :=
  select (broadcastInDim S256 ![] bcast_S_S256 (cmpf (F := Ideal) .ogt cnt (constant (F := Ideal) S_ .f32 0x00000000#32)))
    (Host.divf (F := Ideal)
      (Host.reduceAdd (F := Ideal) (mulf (F := Ideal) (dev0 h) (dev0 h)) (constant (F := Ideal) S_ .f32 0x00000000#32) reducesTo_S50000x256_S256_d0 h_S_)
      (broadcastInDim S256 ![] bcast_S_S256 cnt))
    (broadcastInDim S256 ![] bcast_S_S256 (constant (F := Ideal) S_ .f32 0x7FC00000#32))

def act0 (h : FVec Ideal S50000x256 .f32) (mean var w b : FVec Ideal S256 .f32) : FVec Ideal S50000x256 .f32 :=
  maximumf (F := Ideal)
    (addf (F := Ideal)
      (mulf (F := Ideal)
        (mulf (F := Ideal)
          (subf (F := Ideal) h (broadcastInDim S50000x256 ![0, 1] bcast_S1x256_S50000x256_0_1 (broadcastInDim S1x256 ![1] bcast_S256_S1x256_1 mean)))
          (broadcastInDim S50000x256 ![0, 1] bcast_S1x256_S50000x256_0_1 (broadcastInDim S1x256 ![1] bcast_S256_S1x256_1
            (Host.rsqrt (F := Ideal) (addf (F := Ideal) var (broadcastInDim S256 ![] bcast_S_S256 (constant (F := Ideal) S_ .f32 0x3727C5AC#32)))))))
        (broadcastInDim S50000x256 ![0, 1] bcast_S1x256_S50000x256_0_1 (broadcastInDim S1x256 ![1] bcast_S256_S1x256_1 w)))
      (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

def agg1 (y : FVec Ideal S50000x256 .f32) (ei : IVec S2x800000 32) : FVec Ideal S50000x256 .f32 :=
  Host.divf (F := Ideal)
    (Host.scatterAdd (F := Ideal) scatter_S50000x256_S800000x1_S800000x256_1_0_0_1
      (broadcastInDim S50000x256 ![] bcast_S_S50000x256 (constant (F := Ideal) S_ .f32 0x00000000#32)) (dstIdx ei)
      (Host.gather gather_S50000x256_S800000x1_S800000x256_1_0_n_n_0_1_1256 y (srcIdx ei)))
    (broadcastInDim S50000x256 ![0, 1] bcast_S50000x1_S50000x256_0_1 (broadcastInDim S50000x1 ![0] bcast_S50000_S50000x1_0 (mdeg ei)))

def hpre1 (a y : FVec Ideal S50000x256 .f32) (wl : FVec Ideal S128x256 .f32) (bl : FVec Ideal S128 .f32) (wr : FVec Ideal S128x256 .f32) : FVec Ideal S50000x128 .f32 :=
  addf (F := Ideal)
    (addf (F := Ideal)
      (Host.dotGeneral (F := Ideal) dot_S50000x256_S256x128_S50000x128_1_0_0_1_n_n none a (transpose S256x128 [1, 0] wl transposes_S128x256_S256x128_1_0))
      (broadcastInDim S50000x128 ![0, 1] bcast_S1x128_S50000x128_0_1 (broadcastInDim S1x128 ![1] bcast_S128_S1x128_1 bl)))
    (Host.dotGeneral (F := Ideal) dot_S50000x256_S256x128_S50000x128_1_0_0_1_n_n none y (transpose S256x128 [1, 0] wr transposes_S128x256_S256x128_1_0))

def mean1 (h : FVec Ideal S50000x128 .f32) : FVec Ideal S128 .f32 :=
  Host.divf (F := Ideal) (Host.reduceAdd (F := Ideal) h (constant (F := Ideal) S_ .f32 0x00000000#32) reducesTo_S50000x128_S128_d0 h_S_)
    (broadcastInDim S128 ![] bcast_S_S128 (constant (F := Ideal) S_ .f32 0x47435000#32))

def dev1 (h : FVec Ideal S50000x128 .f32) : FVec Ideal S50000x128 .f32 :=
  subf (F := Ideal) h
    (broadcastInDim S50000x128 ![0, 1] bcast_S1x128_S50000x128_0_1
      (Host.divf (F := Ideal)
        (broadcastInDim S1x128 ![1] bcast_S128_S1x128_1 (Host.reduceAdd (F := Ideal) h (constant (F := Ideal) S_ .f32 0x00000000#32) reducesTo_S50000x128_S128_d0 h_S_))
        (broadcastInDim S1x128 ![] bcast_S_S1x128 (constant (F := Ideal) S_ .f32 0x47435000#32))))

def var1 (h : FVec Ideal S50000x128 .f32) : FVec Ideal S128 .f32 :=
  select (broadcastInDim S128 ![] bcast_S_S128 (cmpf (F := Ideal) .ogt cnt (constant (F := Ideal) S_ .f32 0x00000000#32)))
    (Host.divf (F := Ideal)
      (Host.reduceAdd (F := Ideal) (mulf (F := Ideal) (dev1 h) (dev1 h)) (constant (F := Ideal) S_ .f32 0x00000000#32) reducesTo_S50000x128_S128_d0 h_S_)
      (broadcastInDim S128 ![] bcast_S_S128 cnt))
    (broadcastInDim S128 ![] bcast_S_S128 (constant (F := Ideal) S_ .f32 0x7FC00000#32))

def act1 (h : FVec Ideal S50000x128 .f32) (mean var w b : FVec Ideal S128 .f32) : FVec Ideal S50000x128 .f32 :=
  maximumf (F := Ideal)
    (addf (F := Ideal)
      (mulf (F := Ideal)
        (mulf (F := Ideal)
          (subf (F := Ideal) h (broadcastInDim S50000x128 ![0, 1] bcast_S1x128_S50000x128_0_1 (broadcastInDim S1x128 ![1] bcast_S128_S1x128_1 mean)))
          (broadcastInDim S50000x128 ![0, 1] bcast_S1x128_S50000x128_0_1 (broadcastInDim S1x128 ![1] bcast_S128_S1x128_1
            (Host.rsqrt (F := Ideal) (addf (F := Ideal) var (broadcastInDim S128 ![] bcast_S_S128 (constant (F := Ideal) S_ .f32 0x3727C5AC#32)))))))
        (broadcastInDim S50000x128 ![0, 1] bcast_S1x128_S50000x128_0_1 (broadcastInDim S1x128 ![1] bcast_S128_S1x128_1 w)))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

def mcnt (bt : IVec S50000 32) : FVec Ideal S64 .f32 :=
  maximumf (F := Ideal)
    (Host.scatterAdd (F := Ideal) scatter_S64_S50000x1_S50000_n_0_0_1
      (broadcastInDim S64 ![] bcast_S_S64 (constant (F := Ideal) S_ .f32 0x00000000#32)) (broadcastInDim S50000x1 ![0] bcast_S50000_S50000x1_0 bt)
      (broadcastInDim S50000 ![] bcast_S_S50000 (constant (F := Ideal) S_ .f32 0x3F800000#32)))
    (broadcastInDim S64 ![] bcast_S_S64 (constant (F := Ideal) S_ .f32 0x3F800000#32))

def emb (y : FVec Ideal S50000x128 .f32) (bt : IVec S50000 32) : FVec Ideal S64x128 .f32 :=
  Host.divf (F := Ideal)
    (Host.scatterAdd (F := Ideal) scatter_S64x128_S50000x1_S50000x128_1_0_0_1
      (broadcastInDim S64x128 ![] bcast_S_S64x128 (constant (F := Ideal) S_ .f32 0x00000000#32)) (broadcastInDim S50000x1 ![0] bcast_S50000_S50000x1_0 bt) y)
    (broadcastInDim S64x128 ![0, 1] bcast_S64x1_S64x128_0_1 (broadcastInDim S64x1 ![0] bcast_S64_S64x1_0 (mcnt bt)))

def tail (e : FVec Ideal S64x128 .f32) (cw1 : FVec Ideal S128x128 .f32) (cb1 : FVec Ideal S128 .f32) (cw2 : FVec Ideal S2x128 .f32) (cb2 : FVec Ideal S2 .f32) : FVec Ideal S64x2 .f32 :=
  addf (F := Ideal)
    (Host.dotGeneral (F := Ideal) dot_S64x128_S128x2_S64x2_1_0_0_1_n_n none
      (maximumf (F := Ideal)
        (addf (F := Ideal)
          (Host.dotGeneral (F := Ideal) dot_S64x128_S128x128_S64x128_1_0_0_1_n_n none e (transpose S128x128 [1, 0] cw1 transposes_S128x128_S128x128_1_0))
          (broadcastInDim S64x128 ![0, 1] bcast_S1x128_S64x128_0_1 (broadcastInDim S1x128 ![1] bcast_S128_S1x128_1 cb1)))
        (broadcastInDim S64x128 ![] bcast_S_S64x128 (constant (F := Ideal) S_ .f32 0x00000000#32)))
      (transpose S128x2 [1, 0] cw2 transposes_S2x128_S128x2_1_0))
    (broadcastInDim S64x2 ![0, 1] bcast_S1x2_S64x2_0_1 (broadcastInDim S1x2 ![1] bcast_S2_S1x2_1 cb2))

def h0Of (x : FVec Ideal S50000x128 .f32) (ei : IVec S2x800000 32) (wl0 : FVec Ideal S256x128 .f32) (bl0 : FVec Ideal S256 .f32) (wr0 : FVec Ideal S256x128 .f32) : FVec Ideal S50000x256 .f32 :=
  hpre0 (agg0 x ei) x wl0 bl0 wr0

def y0Of (x : FVec Ideal S50000x128 .f32) (ei : IVec S2x800000 32) (wl0 : FVec Ideal S256x128 .f32) (bl0 : FVec Ideal S256 .f32) (wr0 : FVec Ideal S256x128 .f32)
    (bnw0 bnb0 : FVec Ideal S256 .f32) : FVec Ideal S50000x256 .f32 :=
  act0 (h0Of x ei wl0 bl0 wr0) (mean0 (h0Of x ei wl0 bl0 wr0)) (var0 (h0Of x ei wl0 bl0 wr0)) bnw0 bnb0

def h1Of (x : FVec Ideal S50000x128 .f32) (ei : IVec S2x800000 32) (wl0 : FVec Ideal S256x128 .f32) (bl0 : FVec Ideal S256 .f32) (wr0 : FVec Ideal S256x128 .f32)
    (bnw0 bnb0 : FVec Ideal S256 .f32) (wl1 : FVec Ideal S128x256 .f32) (bl1 : FVec Ideal S128 .f32) (wr1 : FVec Ideal S128x256 .f32) : FVec Ideal S50000x128 .f32 :=
  hpre1 (agg1 (y0Of x ei wl0 bl0 wr0 bnw0 bnb0) ei) (y0Of x ei wl0 bl0 wr0 bnw0 bnb0) wl1 bl1 wr1

def embOf (x : FVec Ideal S50000x128 .f32) (ei : IVec S2x800000 32) (bt : IVec S50000 32)
    (wl0 : FVec Ideal S256x128 .f32) (bl0 : FVec Ideal S256 .f32) (wr0 : FVec Ideal S256x128 .f32) (bnw0 bnb0 : FVec Ideal S256 .f32)
    (wl1 : FVec Ideal S128x256 .f32) (bl1 : FVec Ideal S128 .f32) (wr1 : FVec Ideal S128x256 .f32) (bnw1 bnb1 : FVec Ideal S128 .f32)
    (cw1 : FVec Ideal S128x128 .f32) (cb1 : FVec Ideal S128 .f32) (cw2 : FVec Ideal S2x128 .f32) (cb2 : FVec Ideal S2 .f32) : FVec Ideal S64x128 .f32 :=
  emb (act1 (h1Of x ei wl0 bl0 wr0 bnw0 bnb0 wl1 bl1 wr1) (mean1 (h1Of x ei wl0 bl0 wr0 bnw0 bnb0 wl1 bl1 wr1))
    (var1 (h1Of x ei wl0 bl0 wr0 bnw0 bnb0 wl1 bl1 wr1)) bnw1 bnb1) bt

def logitsOf (x : FVec Ideal S50000x128 .f32) (ei : IVec S2x800000 32) (bt : IVec S50000 32)
    (wl0 : FVec Ideal S256x128 .f32) (bl0 : FVec Ideal S256 .f32) (wr0 : FVec Ideal S256x128 .f32) (bnw0 bnb0 : FVec Ideal S256 .f32)
    (wl1 : FVec Ideal S128x256 .f32) (bl1 : FVec Ideal S128 .f32) (wr1 : FVec Ideal S128x256 .f32) (bnw1 bnb1 : FVec Ideal S128 .f32)
    (cw1 : FVec Ideal S128x128 .f32) (cb1 : FVec Ideal S128 .f32) (cw2 : FVec Ideal S2x128 .f32) (cb2 : FVec Ideal S2 .f32) : FVec Ideal S64x2 .f32 :=
  tail (embOf x ei bt wl0 bl0 wr0 bnw0 bnb0 wl1 bl1 wr1 bnw1 bnb1 cw1 cb1 cw2 cb2) cw1 cb1 cw2 cb2

end Cert.ReferenceIdeal.RC

end
-- ==== Proof.RApply.lean ====
import proofs.«408482_j65996467470993_2_alg».proof.Proof.RChain
import proofs.«408482_j65996467470993_2_alg».proof.Proof.KTerms
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.RA

open Idealize.ShloMosaic Idealize.ShloMosaic.ValueIdx Cert.ReferenceIdeal Cert.ReferenceIdeal.RC Cert.ReferenceIdeal.Facts₀
open scoped BigOperators

theorem hdivf_apply {s : Shape} {φ : FTy} (x y : FVec Ideal s φ) (i : s.Idx) : Host.divf (F := Ideal) x y i = Ideal.div (x i) (y i) := rfl

theorem bscalar_apply {α : Type} {t : Shape} (h : S_.BroadcastsInDim t (![] : Fin 0 → Fin t.rank)) (c : S_.Idx → α) (j : t.Idx) :
    broadcastInDim t ![] h c j = c ix0 :=
  broadcastInDim_apply _ h c j ix0 fun a => a.elim0

theorem col_apply {α : Type} {R C : Nat} (h1 : (⟨1, ![R]⟩ : Shape).BroadcastsInDim ⟨2, ![R, 1]⟩ (![0] : Fin 1 → Fin 2))
    (h2 : (⟨2, ![R, 1]⟩ : Shape).BroadcastsInDim ⟨2, ![R, C]⟩ (![0, 1] : Fin 2 → Fin 2)) (hR : R ≠ 1)
    (v : (⟨1, ![R]⟩ : Shape).Idx → α) (i : (⟨2, ![R, C]⟩ : Shape).Idx) :
    broadcastInDim ⟨2, ![R, C]⟩ ![0, 1] h2 (broadcastInDim ⟨2, ![R, 1]⟩ ![0] h1 v) i = v (ix1 (i 0)) := by
  refine (broadcastInDim_apply _ _ _ _ (ix2 (i 0) (0 : Fin 1)) fun a => ?_).trans ?_
  · match a with
    | ⟨0, _⟩ => exact (if_neg hR).symm
    | ⟨1, _⟩ => rfl
  · refine broadcastInDim_apply _ _ _ _ (ix1 (i 0)) fun a => ?_
    match a with
    | ⟨0, _⟩ => exact (if_neg hR).symm

theorem cnt_apply : cnt ix0 = Ideal.ofBits .f32 0x47435000#32 - ((((0#32 : BitVec 32).toInt : ℝ)) : EReal) := rfl

-- a coordinate of extent O is kept by a broadcast: when O = 1 it is 0 anyway
theorem keep_val {O : Nat} (o : Fin O) : o.val = if O = 1 then 0 else o.val := by
  split <;> omega

theorem rows_apply {α : Type} {N O : Nat} (h : (⟨2, ![1, O]⟩ : Shape).BroadcastsInDim ⟨2, ![N, O]⟩ (![0, 1] : Fin 2 → Fin 2))
    (r : (⟨2, ![1, O]⟩ : Shape).Idx → α) (n : Fin N) (o : Fin O) :
    broadcastInDim ⟨2, ![N, O]⟩ ![0, 1] h r (ix2 n o) = r (ix2 (0 : Fin 1) o) := by
  refine broadcastInDim_apply _ _ _ _ (ix2 (0 : Fin 1) o) fun a => ?_
  match a with
  | ⟨0, _⟩ => rfl
  | ⟨1, _⟩ => exact keep_val o

theorem asrow_apply {α : Type} {O : Nat} (h : (⟨1, ![O]⟩ : Shape).BroadcastsInDim ⟨2, ![1, O]⟩ (![1] : Fin 1 → Fin 2))
    (v : (⟨1, ![O]⟩ : Shape).Idx → α) (o : Fin O) :
    broadcastInDim ⟨2, ![1, O]⟩ ![1] h v (ix2 (0 : Fin 1) o) = v (ix1 o) := by
  refine broadcastInDim_apply _ _ _ _ (ix1 o) fun a => ?_
  match a with
  | ⟨0, _⟩ => exact keep_val o

theorem row_apply {α : Type} {N O : Nat} (h1 : (⟨1, ![O]⟩ : Shape).BroadcastsInDim ⟨2, ![1, O]⟩ (![1] : Fin 1 → Fin 2))
    (h2 : (⟨2, ![1, O]⟩ : Shape).BroadcastsInDim ⟨2, ![N, O]⟩ (![0, 1] : Fin 2 → Fin 2)) (v : (⟨1, ![O]⟩ : Shape).Idx → α) (n : Fin N) (o : Fin O) :
    broadcastInDim ⟨2, ![N, O]⟩ ![0, 1] h2 (broadcastInDim ⟨2, ![1, O]⟩ ![1] h1 v) (ix2 n o) = v (ix1 o) :=
  (rows_apply h2 _ n o).trans (asrow_apply h1 v o)

theorem sumT_apply {N K O : Nat} (ht : (⟨2, ![O, K]⟩ : Shape).Transposes [1, 0] ⟨2, ![K, O]⟩) (a : KT.A2 N K) (w : KT.A2 O K) (n : Fin N) (o : Fin O) :
    ∑ k : Fin K, a (ix2 n k) * transpose ⟨2, ![K, O]⟩ [1, 0] w ht (ix2 k o) = ∑ k : Fin K, a (ix2 n k) * w (ix2 o k) :=
  Finset.sum_congr rfl fun k _ => congrArg (a (ix2 n k) * ·) (transpose_ix2_apply w ht k o)

-- a linear stage at (n, o): its product record is the plain matrix product's
theorem lin_apply {N K O : Nat} (d : DotDims ⟨2, ![N, K]⟩ ⟨2, ![K, O]⟩ ⟨2, ![N, O]⟩) (hd : d = DotDims.plain N K O)
    (ht : (⟨2, ![O, K]⟩ : Shape).Transposes [1, 0] ⟨2, ![K, O]⟩)
    (h1 : (⟨1, ![O]⟩ : Shape).BroadcastsInDim ⟨2, ![1, O]⟩ (![1] : Fin 1 → Fin 2))
    (h2 : (⟨2, ![1, O]⟩ : Shape).BroadcastsInDim ⟨2, ![N, O]⟩ (![0, 1] : Fin 2 → Fin 2))
    (a x : FVec Ideal ⟨2, ![N, K]⟩ .f32) (wl wr : FVec Ideal ⟨2, ![O, K]⟩ .f32) (bl : FVec Ideal ⟨1, ![O]⟩ .f32) (n : Fin N) (o : Fin O) :
    addf (F := Ideal)
        (addf (F := Ideal) (Host.dotGeneral (F := Ideal) d none a (transpose ⟨2, ![K, O]⟩ [1, 0] wl ht))
          (broadcastInDim ⟨2, ![N, O]⟩ ![0, 1] h2 (broadcastInDim ⟨2, ![1, O]⟩ ![1] h1 bl)))
        (Host.dotGeneral (F := Ideal) d none x (transpose ⟨2, ![K, O]⟩ [1, 0] wr ht)) (ix2 n o)
      = ((∑ k : Fin K, a (ix2 n k) * wl (ix2 o k)) + bl (ix1 o)) + ∑ k : Fin K, x (ix2 n k) * wr (ix2 o k) := by
  subst hd
  rw [addf_apply, addf_apply, StackMember.dotGeneral_plain_apply, StackMember.dotGeneral_plain_apply, row_apply, sumT_apply, sumT_apply]

theorem hpre0_apply (a x : FVec Ideal S50000x128 .f32) (wl : FVec Ideal S256x128 .f32) (bl : FVec Ideal S256 .f32) (wr : FVec Ideal S256x128 .f32)
    (n : Fin 50000) (o : Fin 256) :
    hpre0 a x wl bl wr (ix2 n o)
      = ((∑ k : Fin 128, a (ix2 n k) * wl (ix2 o k)) + bl (ix1 o)) + ∑ k : Fin 128, x (ix2 n k) * wr (ix2 o k) :=
  lin_apply _ rfl _ _ _ a x wl wr bl n o

theorem hpre1_apply (a y : FVec Ideal S50000x256 .f32) (wl : FVec Ideal S128x256 .f32) (bl : FVec Ideal S128 .f32) (wr : FVec Ideal S128x256 .f32)
    (n : Fin 50000) (o : Fin 128) :
    hpre1 a y wl bl wr (ix2 n o)
      = ((∑ k : Fin 256, a (ix2 n k) * wl (ix2 o k)) + bl (ix1 o)) + ∑ k : Fin 256, y (ix2 n k) * wr (ix2 o k) :=
  lin_apply _ rfl _ _ _ a y wl wr bl n o

theorem colsum_apply {N O : Nat} (hr : (⟨2, ![N, O]⟩ : Shape).ReducesTo [0] ⟨1, ![O]⟩) (hu : 0 < S_.numel)
    (h : FVec Ideal ⟨2, ![N, O]⟩ .f32) (o : Fin O) :
    Host.reduceAdd (F := Ideal) h (constant (F := Ideal) S_ .f32 0x00000000#32) hr hu (ix1 o)
      = Ideal.ofBits .f32 0x00000000#32 + ∑ n : Fin N, h (ix2 n o) := by
  refine (Ideal.hostReduceAdd_single hr ⟨hr.1, Nat.one_pos, hr.2⟩ h _ _).trans ?_
  refine congrArg (_ + ·) (Finset.sum_congr rfl fun k _ => congrArg h (funext fun a => Fin.ext ?_))
  match a with
  | ⟨0, _⟩ => rfl
  | ⟨1, _⟩ => rfl

theorem mean0_apply (h : FVec Ideal S50000x256 .f32) (o : Fin 256) :
    mean0 h (ix1 o)
      = Ideal.div (Ideal.ofBits .f32 0x00000000#32 + ∑ n : Fin 50000, h (ix2 n o)) (Ideal.ofBits .f32 0x47435000#32) :=
  congrArg (Ideal.div · _) (colsum_apply _ _ h o)

theorem mean1_apply (h : FVec Ideal S50000x128 .f32) (o : Fin 128) :
    mean1 h (ix1 o)
      = Ideal.div (Ideal.ofBits .f32 0x00000000#32 + ∑ n : Fin 50000, h (ix2 n o)) (Ideal.ofBits .f32 0x47435000#32) :=
  congrArg (Ideal.div · _) (colsum_apply _ _ h o)

theorem act0_apply (h : FVec Ideal S50000x256 .f32) (mean var w b : FVec Ideal S256 .f32) (n : Fin 50000) (o : Fin 256) :
    act0 h mean var w b (ix2 n o)
      = max ((((h (ix2 n o) - mean (ix1 o)) * Ideal.rsqrt (var (ix1 o) + Cert.KT.eps)) * w (ix1 o)) + b (ix1 o))
          (Ideal.ofBits .f32 0x00000000#32) := by
  unfold act0
  simp only [maximumf_apply, addf_apply, mulf_apply, subf_apply]
  rw [row_apply, row_apply, row_apply, row_apply]
  rfl

theorem act1_apply (h : FVec Ideal S50000x128 .f32) (mean var w b : FVec Ideal S128 .f32) (n : Fin 50000) (o : Fin 128) :
    act1 h mean var w b (ix2 n o)
      = max ((((h (ix2 n o) - mean (ix1 o)) * Ideal.rsqrt (var (ix1 o) + Cert.KT.eps)) * w (ix1 o)) + b (ix1 o))
          (Ideal.ofBits .f32 0x00000000#32) := by
  unfold act1
  simp only [maximumf_apply, addf_apply, mulf_apply, subf_apply]
  rw [row_apply, row_apply, row_apply, row_apply]
  rfl

theorem dev0_apply (h : FVec Ideal S50000x256 .f32) (n : Fin 50000) (o : Fin 256) :
    dev0 h (ix2 n o)
      = h (ix2 n o) - Ideal.div (Ideal.ofBits .f32 0x00000000#32 + ∑ m : Fin 50000, h (ix2 m o)) (Ideal.ofBits .f32 0x47435000#32) := by
  unfold dev0
  rw [subf_apply, rows_apply, hdivf_apply, asrow_apply, colsum_apply, bscalar_apply, constant_apply]

theorem var0_apply (h : FVec Ideal S50000x256 .f32) (o : Fin 256) :
    var0 h (ix1 o)
      = Scalar.select (FloatOps.cmpf .ogt (cnt ix0) (Ideal.ofBits .f32 0x00000000#32))
          (Ideal.div
            (Ideal.ofBits .f32 0x00000000#32
              + ∑ n : Fin 50000,
                  (h (ix2 n o) - Ideal.div (Ideal.ofBits .f32 0x00000000#32 + ∑ m : Fin 50000, h (ix2 m o)) (Ideal.ofBits .f32 0x47435000#32))
                  * (h (ix2 n o) - Ideal.div (Ideal.ofBits .f32 0x00000000#32 + ∑ m : Fin 50000, h (ix2 m o)) (Ideal.ofBits .f32 0x47435000#32)))
            (cnt ix0))
          (Ideal.ofBits .f32 0x7FC00000#32) := by
  unfold var0
  rw [select_apply, bscalar_apply, cmpf_apply, constant_apply, hdivf_apply, colsum_apply, bscalar_apply, bscalar_apply, constant_apply]
  simp only [mulf_apply, dev0_apply]

theorem dev1_apply (h : FVec Ideal S50000x128 .f32) (n : Fin 50000) (o : Fin 128) :
    dev1 h (ix2 n o)
      = h (ix2 n o) - Ideal.div (Ideal.ofBits .f32 0x00000000#32 + ∑ m : Fin 50000, h (ix2 m o)) (Ideal.ofBits .f32 0x47435000#32) := by
  unfold dev1
  rw [subf_apply, rows_apply, hdivf_apply, asrow_apply, colsum_apply, bscalar_apply, constant_apply]

theorem var1_apply (h : FVec Ideal S50000x128 .f32) (o : Fin 128) :
    var1 h (ix1 o)
      = Scalar.select (FloatOps.cmpf .ogt (cnt ix0) (Ideal.ofBits .f32 0x00000000#32))
          (Ideal.div
            (Ideal.ofBits .f32 0x00000000#32
              + ∑ n : Fin 50000,
                  (h (ix2 n o) - Ideal.div (Ideal.ofBits .f32 0x00000000#32 + ∑ m : Fin 50000, h (ix2 m o)) (Ideal.ofBits .f32 0x47435000#32))
                  * (h (ix2 n o) - Ideal.div (Ideal.ofBits .f32 0x00000000#32 + ∑ m : Fin 50000, h (ix2 m o)) (Ideal.ofBits .f32 0x47435000#32)))
            (cnt ix0))
          (Ideal.ofBits .f32 0x7FC00000#32) := by
  unfold var1
  rw [select_apply, bscalar_apply, cmpf_apply, constant_apply, hdivf_apply, colsum_apply, bscalar_apply, bscalar_apply, constant_apply]
  simp only [mulf_apply, dev1_apply]

theorem agg0_apply (x : FVec Ideal S50000x128 .f32) (ei : IVec S2x800000 32) (i : S50000x128.Idx) :
    agg0 x ei i
      = Ideal.div
          (Host.scatterAdd (F := Ideal) scatter_S50000x128_S800000x1_S800000x128_1_0_0_1
            (broadcastInDim S50000x128 ![] bcast_S_S50000x128 (constant (F := Ideal) S_ .f32 0x00000000#32)) (dstIdx ei)
            (Host.gather gather_S50000x128_S800000x1_S800000x128_1_0_n_n_0_1_1128 x (srcIdx ei)) i)
          (mdeg ei (ix1 (i 0))) := by
  unfold agg0
  rw [hdivf_apply]
  exact congrArg (Ideal.div _) (col_apply _ _ (by decide) (mdeg ei) i)

theorem agg1_apply (y : FVec Ideal S50000x256 .f32) (ei : IVec S2x800000 32) (i : S50000x256.Idx) :
    agg1 y ei i
      = Ideal.div
          (Host.scatterAdd (F := Ideal) scatter_S50000x256_S800000x1_S800000x256_1_0_0_1
            (broadcastInDim S50000x256 ![] bcast_S_S50000x256 (constant (F := Ideal) S_ .f32 0x00000000#32)) (dstIdx ei)
            (Host.gather gather_S50000x256_S800000x1_S800000x256_1_0_n_n_0_1_1256 y (srcIdx ei)) i)
          (mdeg ei (ix1 (i 0))) := by
  unfold agg1
  rw [hdivf_apply]
  exact congrArg (Ideal.div _) (col_apply _ _ (by decide) (mdeg ei) i)

theorem emb_apply (y : FVec Ideal S50000x128 .f32) (bt : IVec S50000 32) (g : Fin 64) (d : Fin 128) :
    emb y bt (ix2 g d)
      = Ideal.div
          (Ideal.ofBits .f32 0x00000000#32
            + ∑ j ∈ Finset.univ.filter (fun j : S50000x128.Idx =>
                scatter_S64x128_S50000x1_S50000x128_1_0_0_1.resultIdx? j (broadcastInDim S50000x1 ![0] bcast_S50000_S50000x1_0 bt) = some (ix2 g d)), y j)
          (mcnt bt (ix1 g)) := by
  unfold emb
  rw [hdivf_apply, col_apply _ _ (by decide) (mcnt bt) (ix2 g d)]
  simp only [Host.scatterAdd, Ideal.hostScatterAdd_def]
  unfold Ideal.hostScatterAdd
  rw [bscalar_apply, constant_apply]

end Cert.ReferenceIdeal.RA

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

open scoped BigOperators

namespace Cert.LibReal

open Idealize.ShloMosaic

def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) :=
  Finset.sum_induction f IsReal (fun _ _ => IsReal.add) IsReal.zero h

theorem IsReal.div {x y : EReal} : IsReal x → IsReal y → y ≠ 0 → IsReal (Ideal.div x y) := by
  rintro ⟨a, rfl⟩ ⟨b, rfl⟩ hb
  rw [Ideal.div_coe fun h => hb (by rw [h]; rfl)]
  exact IsReal.mul (IsReal.coe a) (IsReal.coe _)

theorem coe_sum {ι : Type} (s : Finset ι) (f : ι → ℝ) :
    ((∑ i ∈ s, f i : ℝ) : EReal) = ∑ i ∈ s, (f i : EReal) := by
  classical
  refine Finset.induction_on s rfl fun a t ha ih => ?_
  rw [Finset.sum_insert ha, Finset.sum_insert ha, EReal.coe_add, ih]

end Cert.LibReal
-- ==== Proof.Algebra.lean ====
import proofs.«408482_j65996467470993_2_alg».proof.Proof.LibReal
import proofs.«408482_j65996467470993_2_alg».proof.Proof.KTerms
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Fin
import Mathlib.Algebra.Order.BigOperators.Group.Finset
import Mathlib.Tactic.Ring
import Mathlib.Tactic.FieldSimp
import Mathlib.Tactic.NormNum
import Mathlib.Tactic.Positivity

open scoped BigOperators

noncomputable section

namespace Cert.Alg

open Idealize.ShloMosaic Idealize.ShloMosaic.ValueIdx Cert.LibReal Cert.KT

theorem div_coe_coe (x y : ℝ) (hy : y ≠ 0) : Ideal.div (x : EReal) (y : EReal) = ((x / y : ℝ) : EReal) := by
  rw [Ideal.div_coe hy, ← EReal.coe_mul]
  congr 1
  rw [one_div, div_eq_mul_inv]

theorem c50000_f32 : Ideal.ofBits .f32 0x47435000#32 = ((50000 : ℝ) : EReal) := by
  simp [Ideal.ofBits, Ideal.ieee, -EReal.coe_mul]; norm_num

theorem cmpf_ogt_50000 : FloatOps.cmpf (F := Ideal) (φ := .f32) .ogt ((50000 : ℝ) : EReal) (0 : EReal) = 1#1 := by
  have h : (0 : EReal) < ((50000 : ℝ) : EReal) := by exact_mod_cast (by norm_num : (0 : ℝ) < 50000)
  show Ideal.cmp .ogt ((50000 : ℝ) : EReal) 0 = 1#1
  simp [Ideal.cmp, h]

-- row 5000 t + p of the ten blocks is the pair (t, p) counted along the rows
theorem sum_blocks {M : Type*} [AddCommMonoid M] (g : Fin 50000 → M) :
    ∑ t : Fin 10, ∑ p : Fin 5000, g (Cert.KT.row t p) = ∑ n : Fin 50000, g n := by
  rw [← Fintype.sum_prod_type' (fun t p => g (Cert.KT.row t p))]
  exact (Finset.sum_congr rfl fun x _ => congrArg g (Fin.ext (Nat.add_comm _ _))).trans
    (Equiv.sum_comp (finProdFinEquiv (m := 10) (n := 5000)) g)

theorem real_var (a : Fin 50000 → ℝ) :
    (∑ n, a n * a n) / 50000 - ((∑ n, a n) / 50000) * ((∑ n, a n) / 50000)
      = (∑ n, (a n - (∑ n, a n) / 50000) * (a n - (∑ n, a n) / 50000)) / 50000 := by
  generalize hS : (∑ n, a n) = S
  generalize hm : S / 50000 = m
  have h1 : ∑ n, (a n - m) * (a n - m) = (∑ n, a n * a n) - 2 * m * S + 50000 * (m * m) := by
    have h2 : ∀ n, (a n - m) * (a n - m) = a n * a n - 2 * m * a n + m * m := fun n => by ring
    simp only [h2]
    rw [Finset.sum_add_distrib, Finset.sum_sub_distrib, ← Finset.mul_sum, hS, Finset.sum_const,
      Finset.card_univ, Fintype.card_fin, nsmul_eq_mul]
    norm_num
  rw [h1, ← hm]
  field_simp
  ring

theorem real_var_nonneg (a : Fin 50000 → ℝ) (m : ℝ) : 0 ≤ (∑ n, (a n - m) * (a n - m)) / 50000 :=
  div_nonneg (Finset.sum_nonneg fun n _ => mul_self_nonneg (a n - m)) (by norm_num)

theorem mean_coe (a : Fin 50000 → ℝ) :
    Ideal.div (0 + ∑ n, (a n : EReal)) ((50000 : ℝ) : EReal) = (((∑ n, a n) / 50000 : ℝ) : EReal) := by
  rw [zero_add, ← coe_sum, div_coe_coe _ _ (by norm_num)]

theorem msd_coe (a : Fin 50000 → ℝ) (m : ℝ) :
    Ideal.div (0 + ∑ n, ((a n : EReal) - (m : EReal)) * ((a n : EReal) - (m : EReal))) ((50000 : ℝ) : EReal)
      = (((∑ n, (a n - m) * (a n - m)) / 50000 : ℝ) : EReal) := by
  simp only [← EReal.coe_sub, ← EReal.coe_mul]
  exact mean_coe fun n => (a n - m) * (a n - m)

-- on a real column the one-pass variance is the two-pass one; both moments are real and the variance is not negative
theorem moments (g : Fin 50000 → EReal) (hg : ∀ n, IsReal (g n)) :
    let N : EReal := ((50000 : ℝ) : EReal)
    let μ := Ideal.div (0 + ∑ n, g n) N
    let V := Ideal.div (0 + ∑ n, (g n - μ) * (g n - μ)) N
    max (Ideal.div (0 + ∑ n, g n * g n) N - μ * μ) 0 = V ∧ IsReal μ ∧ IsReal V ∧ 0 ≤ V := by
  intro N μ V
  choose a ha using hg
  have hG : g = fun n => (a n : EReal) := funext ha
  have hμ : μ = (((∑ n, a n) / 50000 : ℝ) : EReal) := by
    show Ideal.div (0 + ∑ n, g n) ((50000 : ℝ) : EReal) = _
    rw [hG]; exact mean_coe a
  have hsq : Ideal.div (0 + ∑ n, g n * g n) N = (((∑ n, a n * a n) / 50000 : ℝ) : EReal) := by
    show Ideal.div (0 + ∑ n, g n * g n) ((50000 : ℝ) : EReal) = _
    rw [hG]
    simp only [← EReal.coe_mul]
    exact mean_coe fun n => a n * a n
  have hV : V = (((∑ n, (a n - (∑ n, a n) / 50000) * (a n - (∑ n, a n) / 50000)) / 50000 : ℝ) : EReal) := by
    show Ideal.div (0 + ∑ n, (g n - μ) * (g n - μ)) ((50000 : ℝ) : EReal) = _
    rw [hμ, hG]
    exact msd_coe a _
  have h0 := real_var_nonneg a ((∑ n, a n) / 50000)
  refine ⟨?_, ⟨_, hμ⟩, ⟨_, hV⟩, by rw [hV]; exact_mod_cast h0⟩
  rw [hsq, hV, hμ, ← EReal.coe_mul, ← EReal.coe_sub, real_var a]
  exact max_eq_left (by exact_mod_cast h0)

theorem rsqrt_eps_real (v : EReal) (hv : IsReal v) (h0 : 0 ≤ v) : IsReal (Ideal.rsqrt (v + Cert.KT.eps)) := by
  obtain ⟨r, rfl⟩ := hv
  have hr : 0 ≤ r := by exact_mod_cast h0
  have he : Cert.KT.eps = (((10995116 : ℝ) * (2 : ℝ) ^ (-40 : Int) : ℝ) : EReal) := by
    simp [Cert.KT.eps, Ideal.ofBits, Ideal.ieee, -EReal.coe_mul]
  have hp : 0 < r + (10995116 : ℝ) * (2 : ℝ) ^ (-40 : Int) := add_pos_of_nonneg_of_pos hr (by positivity)
  rw [he, ← EReal.coe_add, Ideal.rsqrt_coe, if_neg (not_lt.mpr hp.le), if_neg hp.ne']
  exact IsReal.coe _

end Cert.Alg

end
-- ==== Proof.ScatterLemmas.lean ====
import proofs.«408482_j65996467470993_2_alg».proof.Proof.LibReal
import proofs.«408482_j65996467470993_2_alg».proof.Proof.KTerms
import proofs.«408482_j65996467470993_2_alg».proof.Proof.RApply
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Basic
import Mathlib.Data.EReal.Operations
import Mathlib.Algebra.BigOperators.Group.Finset.Basic
import Mathlib.Algebra.Order.BigOperators.Group.Finset

open scoped BigOperators

noncomputable section

namespace Cert.Scat

open Idealize.ShloMosaic Idealize.ShloMosaic.ValueIdx Cert.LibReal

theorem host_scatterAdd_real {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd (F := Ideal) d x idx upd i) := by
  show IsReal (Ideal.hostScatterAdd d x idx upd i)
  unfold Ideal.hostScatterAdd
  exact IsReal.add (hx i) (IsReal.sum _ _ fun j _ => hu j)

theorem gather_real {s si t : Shape} {w : Nat} (d : GatherDims s si t) (x : s.Idx → EReal) (idx : IVec si w)
    (hx : ∀ i, IsReal (x i)) (j : t.Idx) : IsReal (Host.gather d x idx j) :=
  hx (d.operandIdx j idx)

theorem max_one_facts {c : EReal} (hc : IsReal c) : IsReal (max c 1) ∧ max c 1 ≠ 0 :=
  ⟨IsReal.max hc IsReal.one, fun h => absurd (h ▸ le_max_right c 1 : (1 : EReal) ≤ 0) (not_le.mpr zero_lt_one)⟩

-- an update lands at i exactly when start plus window coordinate is i's coordinate on every axis
theorem resultIdx_eq_some_iff {s si su : Shape} (d : ScatterDims s si su) {w : Nat} (j : su.Idx) (idx : IVec si w) (i : s.Idx) :
    d.resultIdx? j idx = some i ↔ ∀ a, d.start j idx a + (d.window j a : ℤ) = ((i a).val : ℤ) := by
  unfold ScatterDims.resultIdx?
  split
  · next h =>
    rw [Option.some_inj]
    constructor
    · rintro rfl a
      have := (h a).1
      show _ = (((d.start j idx a + (d.window j a : ℤ)).toNat : ℕ) : ℤ)
      omega
    · intro e
      funext a
      refine Fin.ext ?_
      show (d.start j idx a + (d.window j a : ℤ)).toNat = (i a).val
      have := e a
      omega
  · next h =>
    refine ⟨fun he => absurd he (by simp), fun e => absurd (fun a => ?_) h⟩
    have := e a
    have := (i a).isLt
    constructor <;> omega

abbrev S50000 : Shape := ⟨1, ![50000]⟩

abbrev S50000x1 : Shape := ⟨2, ![50000, 1]⟩

abbrev S50000x128 : Shape := ⟨2, ![50000, 128]⟩

abbrev S64x128 : Shape := ⟨2, ![64, 128]⟩

abbrev S1x64 : Shape := ⟨2, ![1, 64]⟩

abbrev S50000x64 : Shape := ⟨2, ![50000, 64]⟩

abbrev poolDims (wf : ScatterDims.WF S64x128 S50000x1 S50000x128 [1] [0] [0] 1) :
    ScatterDims S64x128 S50000x1 S50000x128 where
  updateWindowDims := [1]
  insertedWindowDims := [0]
  scatterDimsToOperandDims := [0]
  indexVectorDim := 1
  wf := wf

section Pool

variable (wf : ScatterDims.WF S64x128 S50000x1 S50000x128 [1] [0] [0] 1)

theorem pool_start0 {w : Nat} (idx : IVec S50000x1 w) (n : Fin 50000) (k : Fin 128) :
    (poolDims wf).start (ix2 n k) idx 0 = (idx (ix2 n (0 : Fin 1))).toInt := by
  unfold ScatterDims.start
  rw [dif_pos (show (0 : Fin S64x128.rank) ∈ (poolDims wf).scatterDimsToOperandDims from List.mem_singleton.mpr rfl)]
  congr 2
  funext b
  refine Fin.ext ?_
  match b with
  | ⟨0, _⟩ => rfl
  | ⟨1, _⟩ => rfl

theorem pool_start1 {w : Nat} (idx : IVec S50000x1 w) (j : S50000x128.Idx) :
    (poolDims wf).start j idx 1 = 0 :=
  dif_neg (show ¬ (1 : Fin S64x128.rank) ∈ ([0] : List (Fin S64x128.rank)) by decide)

theorem pool_window0 (j : S50000x128.Idx) : (poolDims wf).window j 0 = 0 :=
  dif_neg (show ¬ (0 : Fin S64x128.rank) ∈ S64x128.kept [0] by decide)

theorem pool_window1 (n : Fin 50000) (k : Fin 128) : (poolDims wf).window (ix2 n k) 1 = k.val :=
  dif_pos (show (1 : Fin S64x128.rank) ∈ S64x128.kept [0] by decide)

theorem resultIdx_iff_ix {w : Nat} (idx : IVec S50000x1 w) (n : Fin 50000) (k : Fin 128) (g : Fin 64) (dd : Fin 128) :
    (poolDims wf).resultIdx? (ix2 n k) idx = some (ix2 g dd)
      ↔ ((idx (ix2 n (0 : Fin 1))).toInt = (g.val : ℤ) ∧ k = dd) := by
  rw [resultIdx_eq_some_iff, Fin.forall_fin_two, pool_start0, pool_start1, pool_window0, pool_window1]
  show (idx (ix2 n (0 : Fin 1))).toInt + ((0 : ℕ) : ℤ) = (g.val : ℤ) ∧ (0 : ℤ) + ((k.val : ℕ) : ℤ) = (dd.val : ℤ) ↔ _
  constructor
  · rintro ⟨e0, e1⟩
    exact ⟨by omega, Fin.ext (by omega)⟩
  · rintro ⟨e0, rfl⟩
    exact ⟨by omega, by omega⟩

theorem bcol_apply {α : Type} (hb : S50000.BroadcastsInDim S50000x1 ![0]) (bt : S50000.Idx → α) (n : Fin 50000)
    (z : Fin 1) : broadcastInDim S50000x1 ![0] hb bt (ix2 n z) = bt (ix1 n) :=
  broadcastInDim_apply _ _ _ _ (ix1 n) fun a => match a with | ⟨0, _⟩ => rfl

theorem resultIdx_iff_bt (hb : S50000.BroadcastsInDim S50000x1 ![0]) (bt : IVec S50000 32) (n : Fin 50000) (k : Fin 128)
    (g : Fin 64) (dd : Fin 128) :
    (poolDims wf).resultIdx? (ix2 n k) (broadcastInDim S50000x1 ![0] hb bt) = some (ix2 g dd)
      ↔ ((bt (ix1 n)).toInt = (g.val : ℤ) ∧ k = dd) := by
  rw [resultIdx_iff_ix, bcol_apply]

theorem scatter_rows (hb : S50000.BroadcastsInDim S50000x1 ![0]) (bt : IVec S50000 32) (y : S50000x128.Idx → EReal)
    (g : Fin 64) (dd : Fin 128)
    [DecidablePred fun j : S50000x128.Idx =>
      (poolDims wf).resultIdx? j (broadcastInDim S50000x1 ![0] hb bt) = some (ix2 g dd)] :
    ∑ j ∈ Finset.univ.filter (fun j : S50000x128.Idx =>
        (poolDims wf).resultIdx? j (broadcastInDim S50000x1 ![0] hb bt) = some (ix2 g dd)), y j
      = ∑ n : Fin 50000, (if (bt (ix1 n)).toInt = (g.val : ℤ) then y (ix2 n dd) else 0) := by
  rw [Finset.sum_filter, sum_idx2]
  refine Finset.sum_congr rfl fun n _ => ?_
  have key : ∀ k : Fin 128,
      (if (poolDims wf).resultIdx? (ix2 n k) (broadcastInDim S50000x1 ![0] hb bt) = some (ix2 g dd)
        then y (ix2 n k) else 0)
      = if ((bt (ix1 n)).toInt = (g.val : ℤ) ∧ k = dd) then y (ix2 n k) else 0 := fun k =>
    if_congr (resultIdx_iff_bt wf hb bt n k g dd) rfl rfl
  rw [Finset.sum_congr rfl fun k _ => key k]
  by_cases ht : (bt (ix1 n)).toInt = (g.val : ℤ)
  · simp only [ht, true_and, if_true]
    rw [Finset.sum_ite_eq', if_pos (Finset.mem_univ dd)]
  · simp only [ht, false_and, if_false, Finset.sum_const_zero]

end Pool

section OneHot

variable (hb1 : S50000.BroadcastsInDim S50000x1 ![0]) (hb2 : S50000x1.BroadcastsInDim S50000x64 ![0, 1])
  (hb3 : S1x64.BroadcastsInDim S50000x64 ![0, 1])

abbrev onehot (bt : IVec S50000 32) : FVec Ideal S50000x64 .bf16 :=
  uitofp (F := Ideal) .bf16
    (cmpi .eq (broadcastInDim S50000x64 ![0, 1] hb2 (broadcastInDim S50000x1 ![0] hb1 bt))
      (broadcastInDim S50000x64 ![0, 1] hb3 (iotaInDim S1x64 32 1)))

theorem brows_apply {α : Type} (bt : S50000.Idx → α) (n : Fin 50000) (g : Fin 64) :
    broadcastInDim S50000x64 ![0, 1] hb2 (broadcastInDim S50000x1 ![0] hb1 bt) (ix2 n g) = bt (ix1 n) :=
  Cert.ReferenceIdeal.RA.col_apply hb1 hb2 (by decide) bt (ix2 n g)

theorem bcols_iota_apply (n : Fin 50000) (g : Fin 64) :
    broadcastInDim S50000x64 ![0, 1] hb3 (iotaInDim S1x64 32 1) (ix2 n g) = BitVec.ofNat 32 g.val := by
  unfold broadcastInDim iotaInDim
  congr 1

theorem eq_ofNat_iff_toInt (x : BitVec 32) (g : Fin 64) : x = BitVec.ofNat 32 g.val ↔ x.toInt = (g.val : ℤ) := by
  have hg : g.val < 2 ^ 31 := lt_of_lt_of_le g.isLt (by norm_num)
  constructor
  · rintro rfl; exact StableHlo.Predicate.toInt_ofNat_small g.val hg
  · intro h; exact BitVec.eq_of_toInt_eq (by rw [h, StableHlo.Predicate.toInt_ofNat_small g.val hg])

theorem onehot_apply (bt : IVec S50000 32) (n : Fin 50000) (g : Fin 64) :
    onehot hb1 hb2 hb3 bt (ix2 n g) = if (bt (ix1 n)).toInt = (g.val : ℤ) then 1 else 0 := by
  show (((IntOp.cmpi .eq (broadcastInDim S50000x64 ![0, 1] hb2 (broadcastInDim S50000x1 ![0] hb1 bt) (ix2 n g))
      (broadcastInDim S50000x64 ![0, 1] hb3 (iotaInDim S1x64 32 1) (ix2 n g))).toNat : ℝ) : EReal) = _
  rw [brows_apply, bcols_iota_apply]
  by_cases ht : (bt (ix1 n)).toInt = (g.val : ℤ)
  · rw [if_pos ht, StableHlo.Predicate.cmpi_eq_iff.mpr ((eq_ofNat_iff_toInt _ g).mpr ht)]
    show (((1 : ℕ) : ℝ) : EReal) = 1
    rw [Nat.cast_one, EReal.coe_one]
  · have hz : IntOp.cmpi .eq (bt (ix1 n)) (BitVec.ofNat 32 g.val) = 0#1 :=
      eq_zero_of_ne_one fun h => ht ((eq_ofNat_iff_toInt _ g).mp (StableHlo.Predicate.cmpi_eq_iff.mp h))
    rw [if_neg ht, hz]
    show (((0 : ℕ) : ℝ) : EReal) = 0
    rw [Nat.cast_zero, EReal.coe_zero]

variable (wf : ScatterDims.WF S64x128 S50000x1 S50000x128 [1] [0] [0] 1)

theorem pool_eq (bt : IVec S50000 32) (y : S50000x128.Idx → EReal) (g : Fin 64) (dd : Fin 128)
    [DecidablePred fun j : S50000x128.Idx =>
      (poolDims wf).resultIdx? j (broadcastInDim S50000x1 ![0] hb1 bt) = some (ix2 g dd)] :
    ∑ j ∈ Finset.univ.filter (fun j : S50000x128.Idx =>
        (poolDims wf).resultIdx? j (broadcastInDim S50000x1 ![0] hb1 bt) = some (ix2 g dd)), y j
      = ∑ n : Fin 50000, onehot hb1 hb2 hb3 bt (ix2 n g) * y (ix2 n dd) := by
  rw [scatter_rows wf hb1 bt y g dd]
  exact Finset.sum_congr rfl fun n _ => by rw [onehot_apply, ite_mul, one_mul, zero_mul]

end OneHot

end Cert.Scat

end
-- ==== Proof.BridgeAgg.lean ====
import proofs.«408482_j65996467470993_2_alg».proof.Proof.KChainA
import proofs.«408482_j65996467470993_2_alg».proof.Proof.KChainB
import proofs.«408482_j65996467470993_2_alg».proof.Proof.KChainC
import proofs.«408482_j65996467470993_2_alg».proof.Proof.RApply
import proofs.«408482_j65996467470993_2_alg».proof.Proof.Algebra
import proofs.«408482_j65996467470993_2_alg».proof.Proof.ScatterLemmas

noncomputable section

namespace Cert.Bridge

open Idealize.ShloMosaic Cert.LibReal
open Cert.KernelIdeal
open Idealize.ShloMosaic.ValueIdx
open scoped BigOperators

-- the kernel's linear stage adds the bias last, the reference between the two products; any sizes
theorem lin_eq {N K O : Nat} (ht : (⟨2, ![O, K]⟩ : Shape).Transposes [1, 0] ⟨2, ![K, O]⟩) (hc : (⟨1, ![O]⟩ : Shape).ShapeCasts ⟨2, ![1, O]⟩)
    (a x : KT.A2 N K) (wl wr : KT.A2 O K) (bl : (⟨1, ![O]⟩ : Shape).Idx → EReal) (n : Fin N) (o : Fin O) :
    ((∑ k : Fin K, a (ix2 n k) * transpose ⟨2, ![K, O]⟩ [1, 0] wl ht (ix2 k o))
        + ∑ k : Fin K, x (ix2 n k) * transpose ⟨2, ![K, O]⟩ [1, 0] wr ht (ix2 k o)) + shapeCast ⟨2, ![1, O]⟩ bl hc (ix2 (0 : Fin 1) o)
      = ((∑ k : Fin K, a (ix2 n k) * wl (ix2 o k)) + bl (ix1 o)) + ∑ k : Fin K, x (ix2 n k) * wr (ix2 o k) := by
  rw [ReferenceIdeal.RA.sumT_apply, ReferenceIdeal.RA.sumT_apply, shapeCast_a_1a_apply]
  exact add_right_comm _ _ _

theorem bconst_apply {t : Shape} (h : S_.BroadcastsInDim t (![] : Fin 0 → Fin t.rank)) (b : BitVec 32) (j : t.Idx) :
    broadcastInDim t ![] h (constant (F := Ideal) S_ .f32 b) j = Ideal.ofBits .f32 b := rfl

theorem zeros_real {t : Shape} (h : S_.BroadcastsInDim t (![] : Fin 0 → Fin t.rank)) (j : t.Idx) :
    IsReal (broadcastInDim t ![] h (constant (F := Ideal) S_ .f32 0x00000000#32) j) :=
  ⟨0, Ideal.ofBits_zero_f32⟩

-- the clamped in-degree is a sum of ones, clamped below by one
theorem mdeg_facts (ei : IVec S2x800000 32) (n : Fin 50000) :
    IsReal (Cert.ReferenceIdeal.RC.mdeg ei (ix1 n)) ∧ Cert.ReferenceIdeal.RC.mdeg ei (ix1 n) ≠ 0 := by
  unfold Cert.ReferenceIdeal.RC.mdeg
  rw [maximumf_apply, bconst_apply, Ideal.ofBits_one_f32]
  exact Scat.max_one_facts (Scat.host_scatterAdd_real _ _ _ _ (fun i => zeros_real _ i) (fun j => ⟨1, Ideal.ofBits_one_f32⟩) _)

theorem mul_invdeg (ei : IVec S2x800000 32) (n : Fin 50000) (s : EReal) :
    s * KC.invdeg (KC.dst1 ei) (ix1 n) = Ideal.div s (Cert.ReferenceIdeal.RC.mdeg ei (ix1 n)) := by
  unfold KC.invdeg
  rw [Cert.ReferenceIdeal.RA.hdivf_apply, bconst_apply, Ideal.ofBits_one_f32]
  exact Ideal.mul_one_div (mdeg_facts ei n).2

theorem agg128_eq (x : FVec Ideal S50000x128 .f32) (ei : IVec S2x800000 32) :
    KC.aggOf128 x (KC.src1 ei) (KC.dst1 ei) (KC.invdeg (KC.dst1 ei)) = Cert.ReferenceIdeal.RC.agg0 x ei := by
  funext i
  refine Eq.trans ?_ ((mul_invdeg ei (i 0) _).trans (Cert.ReferenceIdeal.RA.agg0_apply x ei i).symm)
  unfold KC.aggOf128
  rw [mulf_apply, Cert.ReferenceIdeal.RA.col_apply _ _ (by decide) (KC.invdeg (KC.dst1 ei)) i]
  rfl

theorem agg128_real (x : FVec Ideal S50000x128 .f32) (ei : IVec S2x800000 32) (hx : ∀ i, IsReal (x i)) :
    ∀ i, IsReal (Cert.ReferenceIdeal.RC.agg0 x ei i) := by
  intro i
  rw [Cert.ReferenceIdeal.RA.agg0_apply]
  exact IsReal.div (Scat.host_scatterAdd_real _ _ _ _ (fun j => zeros_real _ j) (fun j => Scat.gather_real _ x _ hx j) i)
    (mdeg_facts ei (i 0)).1 (mdeg_facts ei (i 0)).2

theorem hpre0_eq (a x : FVec Ideal S50000x128 .f32) (wl : FVec Ideal S256x128 .f32) (bl : FVec Ideal S256 .f32)
    (wr : FVec Ideal S256x128 .f32) : KC.hpre0 a x wl bl wr = Cert.ReferenceIdeal.RC.hpre0 a x wl bl wr := by
  funext i
  obtain ⟨n, o, rfl⟩ : ∃ n o, i = ix2 n o := ⟨i 0, i 1, eq_ix2 i⟩
  exact (lin_eq _ _ a x wl wr bl n o).trans (Cert.ReferenceIdeal.RA.hpre0_apply a x wl bl wr n o).symm

theorem hpre0_real (a x : FVec Ideal S50000x128 .f32) (wl : FVec Ideal S256x128 .f32) (bl : FVec Ideal S256 .f32)
    (wr : FVec Ideal S256x128 .f32) (ha : ∀ i, IsReal (a i)) (hx : ∀ i, IsReal (x i)) (hwl : ∀ i, IsReal (wl i))
    (hbl : ∀ i, IsReal (bl i)) (hwr : ∀ i, IsReal (wr i)) : ∀ i, IsReal (Cert.ReferenceIdeal.RC.hpre0 a x wl bl wr i) := by
  intro i
  obtain ⟨n, o, rfl⟩ : ∃ n o, i = ix2 n o := ⟨i 0, i 1, eq_ix2 i⟩
  rw [Cert.ReferenceIdeal.RA.hpre0_apply]
  exact IsReal.add (IsReal.add (IsReal.sum _ _ fun k _ => IsReal.mul (ha _) (hwl _)) (hbl _))
    (IsReal.sum _ _ fun k _ => IsReal.mul (hx _) (hwr _))

theorem agg256_eq (y : FVec Ideal S50000x256 .f32) (ei : IVec S2x800000 32) :
    KC.aggOf256 y (KC.src1 ei) (KC.dst1 ei) (KC.invdeg (KC.dst1 ei)) = Cert.ReferenceIdeal.RC.agg1 y ei := by
  funext i
  refine Eq.trans ?_ ((mul_invdeg ei (i 0) _).trans (Cert.ReferenceIdeal.RA.agg1_apply y ei i).symm)
  unfold KC.aggOf256
  rw [mulf_apply, Cert.ReferenceIdeal.RA.col_apply _ _ (by decide) (KC.invdeg (KC.dst1 ei)) i]
  rfl

theorem agg256_real (y : FVec Ideal S50000x256 .f32) (ei : IVec S2x800000 32) (hy : ∀ i, IsReal (y i)) :
    ∀ i, IsReal (Cert.ReferenceIdeal.RC.agg1 y ei i) := by
  intro i
  rw [Cert.ReferenceIdeal.RA.agg1_apply]
  exact IsReal.div (Scat.host_scatterAdd_real _ _ _ _ (fun j => zeros_real _ j) (fun j => Scat.gather_real _ y _ hy j) i)
    (mdeg_facts ei (i 0)).1 (mdeg_facts ei (i 0)).2

theorem hpre1_eq (a y : FVec Ideal S50000x256 .f32) (wl : FVec Ideal S128x256 .f32) (bl : FVec Ideal S128 .f32)
    (wr : FVec Ideal S128x256 .f32) :
    KT.lin1 a y (transpose S256x128 [1, 0] wl Facts₀.transposes_S128x256_S256x128_1_0)
      (transpose S256x128 [1, 0] wr Facts₀.transposes_S128x256_S256x128_1_0) (shapeCast S1x128 bl Facts₀.shapeCasts_S128_S1x128)
      = Cert.ReferenceIdeal.RC.hpre1 a y wl bl wr := by
  funext i
  obtain ⟨n, o, rfl⟩ : ∃ n o, i = ix2 n o := ⟨i 0, i 1, eq_ix2 i⟩
  exact (lin_eq _ _ a y wl wr bl n o).trans (Cert.ReferenceIdeal.RA.hpre1_apply a y wl bl wr n o).symm

theorem hpre1_real (a y : FVec Ideal S50000x256 .f32) (wl : FVec Ideal S128x256 .f32) (bl : FVec Ideal S128 .f32)
    (wr : FVec Ideal S128x256 .f32) (ha : ∀ i, IsReal (a i)) (hy : ∀ i, IsReal (y i)) (hwl : ∀ i, IsReal (wl i))
    (hbl : ∀ i, IsReal (bl i)) (hwr : ∀ i, IsReal (wr i)) : ∀ i, IsReal (Cert.ReferenceIdeal.RC.hpre1 a y wl bl wr i) := by
  intro i
  obtain ⟨n, o, rfl⟩ : ∃ n o, i = ix2 n o := ⟨i 0, i 1, eq_ix2 i⟩
  rw [Cert.ReferenceIdeal.RA.hpre1_apply]
  exact IsReal.add (IsReal.add (IsReal.sum _ _ fun k _ => IsReal.mul (ha _) (hwl _)) (hbl _))
    (IsReal.sum _ _ fun k _ => IsReal.mul (hy _) (hwr _))

end Cert.Bridge

end
-- ==== Proof.BridgeAct.lean ====
import proofs.«408482_j65996467470993_2_alg».proof.Proof.KChainA
import proofs.«408482_j65996467470993_2_alg».proof.Proof.KChainB
import proofs.«408482_j65996467470993_2_alg».proof.Proof.KChainC
import proofs.«408482_j65996467470993_2_alg».proof.Proof.RApply
import proofs.«408482_j65996467470993_2_alg».proof.Proof.Algebra

noncomputable section

namespace Cert.Bridge

open Idealize.ShloMosaic Cert.LibReal
open Cert.KernelIdeal
open Idealize.ShloMosaic.ValueIdx
open scoped BigOperators

theorem blocksum_apply {T G O : Nat} (hr : (⟨3, ![T, G, O]⟩ : Shape).ReducesTo [0] ⟨2, ![G, O]⟩) (hu : 0 < S_.numel)
    (s : FVec Ideal ⟨3, ![T, G, O]⟩ .f32) (g : Fin G) (o : Fin O) :
    Host.reduceAdd (F := Ideal) s (constant (F := Ideal) S_ .f32 0x00000000#32) hr hu (ix2 g o)
      = Ideal.ofBits .f32 0x00000000#32 + ∑ t : Fin T, s (ix3 t g o) := by
  refine (Ideal.hostReduceAdd_single hr ⟨hr.1, Nat.two_pos, hr.2⟩ s _ _).trans ?_
  refine congrArg (_ + ·) (Finset.sum_congr rfl fun k _ => congrArg s (funext fun a => Fin.ext ?_))
  match a with
  | ⟨0, _⟩ => rfl
  | ⟨1, _⟩ => rfl
  | ⟨2, _⟩ => rfl

theorem cnt_eq : ReferenceIdeal.RC.cnt ix0 = ((50000 : ℝ) : EReal) := by
  rw [ReferenceIdeal.RA.cnt_apply, Alg.c50000_f32]
  have z : ((0#32 : BitVec 32).toInt) = 0 := rfl
  rw [z, Int.cast_zero, EReal.coe_zero, sub_zero]

def cmean (g : Fin 50000 → EReal) : EReal :=
  Ideal.div (Ideal.ofBits .f32 0x00000000#32 + ∑ n, g n) (Ideal.ofBits .f32 0x47435000#32)

def cvar (g : Fin 50000 → EReal) : EReal :=
  Scalar.select (FloatOps.cmpf (F := Ideal) (φ := .f32) .ogt (ReferenceIdeal.RC.cnt ix0) (Ideal.ofBits .f32 0x00000000#32))
    (Ideal.div (Ideal.ofBits .f32 0x00000000#32 + ∑ n, (g n - cmean g) * (g n - cmean g)) (ReferenceIdeal.RC.cnt ix0))
    (Ideal.ofBits .f32 0x7FC00000#32)

-- on a real column the one-pass moments over ten row blocks are the two-pass moments, which are real, the variance not negative
theorem moments_col (g : Fin 50000 → EReal) (hg : ∀ n, IsReal (g n)) (km kv : EReal)
    (hkm : km = Ideal.div (Ideal.ofBits .f32 0x00000000#32 + ∑ t : Fin 10, ∑ p : Fin 5000, g (KT.row t p)) (Ideal.ofBits .f32 0x47435000#32))
    (hkv : kv = max (Ideal.div (Ideal.ofBits .f32 0x00000000#32 + ∑ t : Fin 10, ∑ p : Fin 5000, g (KT.row t p) * g (KT.row t p))
      (Ideal.ofBits .f32 0x47435000#32) - km * km) (Ideal.ofBits .f32 0x00000000#32)) :
    km = cmean g ∧ kv = cvar g ∧ IsReal (cmean g) ∧ IsReal (cvar g) ∧ 0 ≤ cvar g := by
  have e : ∑ t : Fin 10, ∑ p : Fin 5000, g (KT.row t p) * g (KT.row t p) = ∑ n, g n * g n := Alg.sum_blocks fun n => g n * g n
  rw [Alg.sum_blocks g] at hkm
  subst hkm
  rw [e] at hkv
  subst hkv
  unfold cvar cmean
  rw [cnt_eq, Ideal.ofBits_zero_f32, Alg.c50000_f32, Alg.cmpf_ogt_50000, select_one]
  exact ⟨rfl, Alg.moments g hg⟩

theorem act_entry_real (x m v w b : EReal) (hx : IsReal x) (hm : IsReal m) (hv : IsReal v) (hv0 : 0 ≤ v) (hw : IsReal w)
    (hb : IsReal b) : IsReal (max ((((x - m) * Ideal.rsqrt (v + KT.eps)) * w) + b) (Ideal.ofBits .f32 0x00000000#32)) := by
  rw [Ideal.ofBits_zero_f32]
  exact IsReal.max (IsReal.add (IsReal.mul (IsReal.mul (IsReal.sub hx hm) (Alg.rsqrt_eps_real v hv hv0)) hw) hb) IsReal.zero

-- the kernel's normalise, scale, shift and clamp at (n, o), once its statistics are the block sums' moments, for any width
theorem bn_eq {O : Nat} (h : KT.A2 50000 O) (hh : ∀ i, IsReal (h i)) (km kv : KT.A2 1 O) (w b : (⟨1, ![O]⟩ : Shape).Idx → EReal)
    (hc : (⟨1, ![O]⟩ : Shape).ShapeCasts ⟨2, ![1, O]⟩) (n : Fin 50000) (o : Fin O)
    (hkm : km (ix2 (0 : Fin 1) o) = Ideal.div (Ideal.ofBits .f32 0x00000000#32 + ∑ t : Fin 10, KT.bsumAt h t o) (Ideal.ofBits .f32 0x47435000#32))
    (hkv : kv (ix2 (0 : Fin 1) o) = max (Ideal.div (Ideal.ofBits .f32 0x00000000#32 + ∑ t : Fin 10, KT.bsumsqAt h t o)
      (Ideal.ofBits .f32 0x47435000#32) - km (ix2 (0 : Fin 1) o) * km (ix2 (0 : Fin 1) o)) (Ideal.ofBits .f32 0x00000000#32)) :
    KT.bnreluAt h km kv (shapeCast ⟨2, ![1, O]⟩ w hc) (shapeCast ⟨2, ![1, O]⟩ b hc) n o
      = max ((((h (ix2 n o) - cmean fun m => h (ix2 m o)) * Ideal.rsqrt (cvar (fun m => h (ix2 m o)) + KT.eps)) * w (ix1 o)) + b (ix1 o))
          (Ideal.ofBits .f32 0x00000000#32) := by
  obtain ⟨em, ev, -⟩ := moments_col (fun m => h (ix2 m o)) (fun m => hh _) _ _ hkm hkv
  unfold KT.bnreluAt
  rw [em, ev, shapeCast_a_1a_apply, shapeCast_a_1a_apply]

theorem act0_eq (h : FVec Ideal S50000x256 .f32) (w b : FVec Ideal S256 .f32) (hh : ∀ i, IsReal (h i)) :
    KC.act0 h w b = Cert.ReferenceIdeal.RC.act0 h (Cert.ReferenceIdeal.RC.mean0 h) (Cert.ReferenceIdeal.RC.var0 h) w b := by
  funext i
  obtain ⟨n, o, rfl⟩ : ∃ (n : Fin 50000) (o : Fin 256), i = ix2 n o := ⟨i 0, i 1, eq_ix2 i⟩
  rw [ReferenceIdeal.RA.act0_apply, ReferenceIdeal.RA.mean0_apply, ReferenceIdeal.RA.var0_apply]
  exact bn_eq h hh (KC.mean0 h) (KC.var0 h) w b _ n o (congrArg (Ideal.div · _) (blocksum_apply _ _ (KT.bsum256 h) 0 o))
    (congrArg (fun s => max (Ideal.div s _ - _) _) (blocksum_apply _ _ (KT.bsumsq256 h) 0 o))

theorem act0_real (h : FVec Ideal S50000x256 .f32) (w b : FVec Ideal S256 .f32) (hh : ∀ i, IsReal (h i))
    (hw : ∀ i, IsReal (w i)) (hb : ∀ i, IsReal (b i)) :
    ∀ i, IsReal (Cert.ReferenceIdeal.RC.act0 h (Cert.ReferenceIdeal.RC.mean0 h) (Cert.ReferenceIdeal.RC.var0 h) w b i) := by
  intro i
  obtain ⟨n, o, rfl⟩ : ∃ (n : Fin 50000) (o : Fin 256), i = ix2 n o := ⟨i 0, i 1, eq_ix2 i⟩
  obtain ⟨-, -, hm, hv, h0⟩ := moments_col (fun m => h (ix2 m o)) (fun m => hh _) _ _ rfl rfl
  rw [ReferenceIdeal.RA.act0_apply, ReferenceIdeal.RA.mean0_apply, ReferenceIdeal.RA.var0_apply]
  exact act_entry_real _ _ _ _ _ (hh _) hm hv h0 (hw _) (hb _)

theorem act1_eq (h : FVec Ideal S50000x128 .f32) (w b : FVec Ideal S128 .f32) (hh : ∀ i, IsReal (h i)) :
    KT.bnrelu128 h (KC.mean1 h) (KC.var1 h) (shapeCast S1x128 w Facts₀.shapeCasts_S128_S1x128) (shapeCast S1x128 b Facts₀.shapeCasts_S128_S1x128)
      = Cert.ReferenceIdeal.RC.act1 h (Cert.ReferenceIdeal.RC.mean1 h) (Cert.ReferenceIdeal.RC.var1 h) w b := by
  funext i
  obtain ⟨n, o, rfl⟩ : ∃ (n : Fin 50000) (o : Fin 128), i = ix2 n o := ⟨i 0, i 1, eq_ix2 i⟩
  rw [ReferenceIdeal.RA.act1_apply, ReferenceIdeal.RA.mean1_apply, ReferenceIdeal.RA.var1_apply]
  exact bn_eq h hh (KC.mean1 h) (KC.var1 h) w b _ n o (congrArg (Ideal.div · _) (blocksum_apply _ _ (KT.bsum128 h) 0 o))
    (congrArg (fun s => max (Ideal.div s _ - _) _) (blocksum_apply _ _ (KT.bsumsq128 h) 0 o))

end Cert.Bridge

end
-- ==== Proof.BridgePool.lean ====
import proofs.«408482_j65996467470993_2_alg».proof.Proof.KChainA
import proofs.«408482_j65996467470993_2_alg».proof.Proof.KChainB
import proofs.«408482_j65996467470993_2_alg».proof.Proof.KChainC
import proofs.«408482_j65996467470993_2_alg».proof.Proof.RChain
import proofs.«408482_j65996467470993_2_alg».proof.Proof.LibReal
import proofs.«408482_j65996467470993_2_alg».proof.Proof.BridgeAct
import proofs.«408482_j65996467470993_2_alg».proof.Proof.Algebra
import proofs.«408482_j65996467470993_2_alg».proof.Proof.RApply
import proofs.«408482_j65996467470993_2_alg».proof.Proof.ScatterLemmas
import Idealize.ShloMosaic.Lib.ValueIdx
import Idealize.ShloMosaic.PureOps.Ideal.Laws

noncomputable section

namespace Cert.Bridge

open Idealize.ShloMosaic Cert.LibReal
open Cert.KernelIdeal
open Idealize.ShloMosaic.ValueIdx
open scoped BigOperators

theorem tail_eq (e : FVec Ideal S64x128 .f32) (cw1 : FVec Ideal S128x128 .f32) (cb1 : FVec Ideal S128 .f32)
    (cw2 : FVec Ideal S2x128 .f32) (cb2 : FVec Ideal S2 .f32) :
    KC.tail e cw1 cb1 cw2 cb2 = Cert.ReferenceIdeal.RC.tail e cw1 cb1 cw2 cb2 := rfl

-- the ten blocks' pooled partial sums add up to the one-hot weighted sum over all rows, which is the scatter by graph
theorem emb_eq (h : FVec Ideal S50000x128 .f32) (w b : FVec Ideal S128 .f32) (bt : IVec S50000 32) (hh : ∀ i, IsReal (h i)) :
    KC.emb h w b bt = Cert.ReferenceIdeal.RC.emb (Cert.ReferenceIdeal.RC.act1 h (Cert.ReferenceIdeal.RC.mean1 h) (Cert.ReferenceIdeal.RC.var1 h) w b) bt := by
  funext i
  obtain ⟨g, d, rfl⟩ : ∃ (g : Fin 64) (d : Fin 128), i = ValueIdx.ix2 g d := ⟨i 0, i 1, ValueIdx.eq_ix2 i⟩
  have e : ∑ t : Fin 10, KC.poolp h w b bt (ix3 t g d) = _ :=
    Cert.Alg.sum_blocks fun n => KC.onehot bt (ix2 n g) * KT.bnrelu128 h (KC.mean1 h) (KC.var1 h)
      (shapeCast S1x128 w Gen.shapeCasts_S128_S1x128) (shapeCast S1x128 b Gen.shapeCasts_S128_S1x128) (ix2 n d)
  unfold KC.emb
  rw [Cert.ReferenceIdeal.RA.hdivf_apply, Cert.ReferenceIdeal.RA.col_apply _ _ (by decide) (KC.mcnt bt) (ix2 g d), blocksum_apply,
    e, act1_eq h w b hh, Cert.ReferenceIdeal.RA.emb_apply]
  exact congrArg₂ Ideal.div (congrArg (_ + ·) (@Cert.Scat.pool_eq _ _ _ _ bt _ g d _).symm) rfl

end Cert.Bridge

end
-- ==== Proof.Final.lean ====
import proofs.«408482_j65996467470993_2_alg».proof.Proof.KHostA
import proofs.«408482_j65996467470993_2_alg».proof.Proof.KHostB
import proofs.«408482_j65996467470993_2_alg».proof.Proof.KHostC
import proofs.«408482_j65996467470993_2_alg».proof.Proof.BridgeAgg
import proofs.«408482_j65996467470993_2_alg».proof.Proof.BridgeAct
import proofs.«408482_j65996467470993_2_alg».proof.Proof.BridgePool

noncomputable section

namespace Cert.Final

open Idealize.ShloMosaic Idealize.ShloMosaic.TcCoe Idealize.SL.Sem Cert.LibReal
open Cert.KernelIdeal Cert.KernelIdeal.Gen

variable (m : (ℓ : Loc nD τ sig) → Buf (Elt Ideal) ℓ) (ρ : Dev nD → PrngReg)

theorem values (c : Dev nD)
    (h0 : ∀ i, IsReal (m ((c.tc : Thread nD τ).loc main_arg0) i))
    (h3 : ∀ i, IsReal (m ((c.tc : Thread nD τ).loc main_arg3) i))
    (h4 : ∀ i, IsReal (m ((c.tc : Thread nD τ).loc main_arg4) i))
    (h5 : ∀ i, IsReal (m ((c.tc : Thread nD τ).loc main_arg5) i))
    (h6 : ∀ i, IsReal (m ((c.tc : Thread nD τ).loc main_arg6) i))
    (h7 : ∀ i, IsReal (m ((c.tc : Thread nD τ).loc main_arg7) i))
    (h8 : ∀ i, IsReal (m ((c.tc : Thread nD τ).loc main_arg8) i))
    (h9 : ∀ i, IsReal (m ((c.tc : Thread nD τ).loc main_arg9) i))
    (h10 : ∀ i, IsReal (m ((c.tc : Thread nD τ).loc main_arg10) i))
    (h11 : ∀ i, IsReal (m ((c.tc : Thread nD τ).loc main_arg11) i))
    (h12 : ∀ i, IsReal (m ((c.tc : Thread nD τ).loc main_arg12) i)) :
    W13 m ρ c (Proc.devRef .tc main_v93)
        = Cert.ReferenceIdeal.RC.logitsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ W13 m ρ c (Proc.devRef .tc main_v82)
        = Cert.ReferenceIdeal.RC.embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by

  have arg6 : ∀ r ∈ [main_arg2, main_arg11, main_arg12, main_arg13, main_arg14, main_arg15, main_arg16],
      W6 m ρ c (Proc.devRef .tc r) = m ((c.tc : Thread nD τ).loc r) := List.forall_iff_forall_mem.mp (by
    simp only [List.Forall]
    repeat' apply And.intro
    all_goals exact (KHost.W6_keep m ρ c _ (by decide)).trans ((KHost.W4_keep m ρ c _ (by decide)).trans (KHost.W1_arg m ρ c _ (by decide))))
  have e43 := KHost.W4_v43 m ρ c
  rw [Bridge.agg128_eq, Bridge.hpre0_eq] at e43
  have hA0 := Bridge.agg128_real (m ((c.tc : Thread nD τ).loc main_arg0)) (m ((c.tc : Thread nD τ).loc main_arg1)) h0
  have hH0 := Bridge.hpre0_real _ (m ((c.tc : Thread nD τ).loc main_arg0)) (m ((c.tc : Thread nD τ).loc main_arg3)) (m ((c.tc : Thread nD τ).loc main_arg4)) (m ((c.tc : Thread nD τ).loc main_arg5)) hA0 h0 h3 h4 h5
  rw [Bridge.act0_eq _ _ _ hH0] at e43
  have hY0 := Bridge.act0_real _ (m ((c.tc : Thread nD τ).loc main_arg6)) (m ((c.tc : Thread nD τ).loc main_arg7)) hH0 h6 h7

  obtain ⟨e58, e58s, e58q⟩ := KHost.W6_vals m ρ c _ _ _ _ _ _ _ e43 ((KHost.W4_keep m ρ c _ (by decide)).trans (KHost.W1_main_v1 m ρ c)) ((KHost.W4_keep m ρ c _ (by decide)).trans (KHost.W1_main_v3 m ρ c))
    ((KHost.W4_keep m ρ c _ (by decide)).trans (KHost.W1_main_v11 m ρ c)) ((KHost.W4_keep m ρ c _ (by decide)).trans (KHost.W1_main_v14 m ρ c)) ((KHost.W4_keep m ρ c _ (by decide)).trans (KHost.W1_main_v15 m ρ c)) ((KHost.W4_keep m ρ c _ (by decide)).trans (KHost.W1_arg m ρ c _ (by decide)))
  rw [Bridge.agg256_eq, Bridge.hpre1_eq] at e58 e58s e58q
  have hA1 := Bridge.agg256_real _ (m ((c.tc : Thread nD τ).loc main_arg1)) hY0
  have hH1 := Bridge.hpre1_real _ _ (m ((c.tc : Thread nD τ).loc main_arg8)) (m ((c.tc : Thread nD τ).loc main_arg9)) (m ((c.tc : Thread nD τ).loc main_arg10)) hA1 hY0 h8 h9 h10

  obtain ⟨e93, e82⟩ := KHost.W13_vals m ρ c _ _ _ _ _ _ _ _ e58 e58s e58q
    (arg6 _ (by decide))
    (arg6 _ (by decide))
    (arg6 _ (by decide))
    (arg6 _ (by decide))
    (arg6 _ (by decide))
    (arg6 _ (by decide))
    (arg6 _ (by decide))
  rw [Bridge.emb_eq _ _ _ _ hH1] at e93 e82
  rw [Bridge.tail_eq] at e93
  exact ⟨e93, e82⟩

end Cert.Final

end
-- ==== Proof.Finite.lean ====
import proofs.«408482_j65996467470993_2_alg».proof.Defs
import proofs.«408482_j65996467470993_2_alg».proof.Proof.Gen.Pre_finite_inputs
import proofs.«408482_j65996467470993_2_alg».proof.Proof.Gen.KernelIdeal
import Idealize.ShloMosaic.Lib.ReduceAll
import Idealize.ShloMosaic.Lib.ValueIdx
import Idealize.ShloMosaic.PureOps.Ideal
import Mathlib.Data.EReal.Basic

noncomputable section

namespace Cert.KernelIdeal.Finite

open Idealize.ShloMosaic Idealize.SL.Sem Cert.Pre_finite_inputs

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  change BitVec.ofBool (decide (max x (-x) < Ideal.ofBits .f32 0x7F800000#32)) = 1#1 at h
  rw [inf_eq_top] at h
  by_contra hn
  rw [decide_eq_false hn] at h
  exact absurd h (by decide)

theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi
      (cmpf .olt (Host.absf x) (broadcastInDim s ![] hb (constant (F := Ideal) S_ .f32 0x7F800000#32))) init hr hu j = 1#1)
    (i : s.Idx) : ∃ r : ℝ, x i = (r : EReal) :=
  real_of_cmp (x i) (Host.reduce_andi_all _ init hr hu j h i)

theorem real_args (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal))
      ∧ (∀ i, ∃ r : ℝ, m ((c.tc : Thread Cert.KernelIdeal.nD Cert.KernelIdeal.τ).loc Cert.KernelIdeal.main_arg14) i = (r : EReal))
      ∧ (∀ i, ∃ r : ℝ, m ((c.tc : Thread Cert.KernelIdeal.nD Cert.KernelIdeal.τ).loc Cert.KernelIdeal.main_arg15) i = (r : EReal))
      ∧ (∀ i, ∃ r : ℝ, m ((c.tc : Thread Cert.KernelIdeal.nD Cert.KernelIdeal.τ).loc Cert.KernelIdeal.main_arg16) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  simp only [IntOp.andi_eq_one] at h0
  obtain ⟨⟨⟨⟨⟨⟨⟨⟨⟨⟨⟨⟨⟨⟨a0, a3⟩, a4⟩, a5⟩, a6⟩, a7⟩, a8⟩, a9⟩, a10⟩, a11⟩, a12⟩, a13⟩, a14⟩, a15⟩, a16⟩ := h0
  exact ⟨real_of_all _ _ _ _ _ _ a0,
    real_of_all _ _ _ _ _ _ a3,
    real_of_all _ _ _ _ _ _ a4,
    real_of_all _ _ _ _ _ _ a5,
    real_of_all _ _ _ _ _ _ a6,
    real_of_all _ _ _ _ _ _ a7,
    real_of_all _ _ _ _ _ _ a8,
    real_of_all _ _ _ _ _ _ a9,
    real_of_all _ _ _ _ _ _ a10,
    real_of_all _ _ _ _ _ _ a11,
    real_of_all _ _ _ _ _ _ a12,
    real_of_all _ _ _ _ _ _ a13,
    real_of_all _ _ _ _ _ _ a14,
    real_of_all _ _ _ _ _ _ a15,
    real_of_all _ _ _ _ _ _ a16⟩

end Cert.KernelIdeal.Finite

end
-- ==== Proof.RefRun.lean ====
import proofs.«408482_j65996467470993_2_alg».proof.Proof.RChain
import Idealize.ShloMosaic.Lib.StableHlo.Run
import Idealize.ShloMosaic.Lib.Pipeline.Frame

set_option Elab.async false

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

abbrev sg1 : List (HloOp τ sig (Elt F)) :=
  [ StableHlo.unary main_arg1 main_v0 ((extractStridedSlice S1x800000 ![0, 0] · slices_S2x800000_S1x800000_0_0)),
    StableHlo.reshape main_v0 main_v1 rfl shapeCasts_S1x800000_S800000,
    StableHlo.unary main_arg1 main_v2 ((extractStridedSlice S1x800000 ![1, 0] · slices_S2x800000_S1x800000_1_0)),
    StableHlo.reshape main_v2 main_v3 rfl shapeCasts_S1x800000_S800000,
    StableHlo.nullary main_c (constantI S_ 32 0#32),
    StableHlo.unary main_c main_v4 (broadcastInDim S800000 ![] bcast_S_S800000),
    StableHlo.binary main_v1 main_v4 main_v5 (cmpi .slt),
    StableHlo.nullary main_c_0 (constantI S_ 32 50000#32),
    StableHlo.unary main_c_0 main_v6 (broadcastInDim S800000 ![] bcast_S_S800000),
    StableHlo.binary main_v1 main_v6 main_v7 (addi),
    StableHlo.ternary main_v5 main_v7 main_v1 main_v8 (select),
    StableHlo.unary main_v8 main_v9 (broadcastInDim S800000x1 ![0] bcast_S800000_S800000x1_0),
    StableHlo.binary main_arg0 main_v9 main_v10 ((fun x i => Host.gather gather_S50000x128_S800000x1_S800000x128_1_0_n_n_0_1_1128 x i)),
    StableHlo.nullary main_cst (constant S_ .f32 0x3F800000#32),
    StableHlo.unary main_cst main_v11 (broadcastInDim S800000 ![] bcast_S_S800000),
    StableHlo.nullary main_cst_1 (constant S_ .f32 0x00000000#32),
    StableHlo.unary main_cst_1 main_v12 (broadcastInDim S50000 ![] bcast_S_S50000),
    StableHlo.unary main_v3 main_v13 (broadcastInDim S800000x1 ![0] bcast_S800000_S800000x1_0),
    StableHlo.ternary main_v12 main_v13 main_v11 main_v14 ((fun x i u => Host.scatterAdd scatter_S50000_S800000x1_S800000_n_0_0_1 x i u)),
    StableHlo.nullary main_cst_2 (constant S_ .f32 0x00000000#32),
    StableHlo.unary main_cst_2 main_v15 (broadcastInDim S50000x128 ![] bcast_S_S50000x128),
    StableHlo.unary main_v3 main_v16 (broadcastInDim S800000x1 ![0] bcast_S800000_S800000x1_0),
    StableHlo.ternary main_v15 main_v16 main_v10 main_v17 ((fun x i u => Host.scatterAdd scatter_S50000x128_S800000x1_S800000x128_1_0_0_1 x i u)),
    StableHlo.nullary main_cst_3 (constant S_ .f32 0x3F800000#32),
    StableHlo.unary main_cst_3 main_v18 (broadcastInDim S50000 ![] bcast_S_S50000),
    StableHlo.binary main_v14 main_v18 main_v19 (maximumf),
    StableHlo.unary main_v19 main_v20 (broadcastInDim S50000x1 ![0] bcast_S50000_S50000x1_0),
    StableHlo.unary main_v20 main_v21 (broadcastInDim S50000x128 ![0, 1] bcast_S50000x1_S50000x128_0_1),
    StableHlo.binary main_v17 main_v21 main_v22 (Host.divf) ]

abbrev sg2 : List (HloOp τ sig (Elt F)) :=
  [ StableHlo.unary main_arg3 main_v23 ((transpose S128x256 [1, 0] · transposes_S256x128_S128x256_1_0)),
    StableHlo.binary main_v22 main_v23 main_v24 ((fun l r => Host.dotGeneral dot_S50000x128_S128x256_S50000x256_1_0_0_1_n_n none l r)),
    StableHlo.unary main_arg4 main_v25 (broadcastInDim S1x256 ![1] bcast_S256_S1x256_1),
    StableHlo.unary main_v25 main_v26 (broadcastInDim S50000x256 ![0, 1] bcast_S1x256_S50000x256_0_1),
    StableHlo.binary main_v24 main_v26 main_v27 (addf),
    StableHlo.unary main_arg5 main_v28 ((transpose S128x256 [1, 0] · transposes_S256x128_S128x256_1_0)),
    StableHlo.binary main_arg0 main_v28 main_v29 ((fun l r => Host.dotGeneral dot_S50000x128_S128x256_S50000x256_1_0_0_1_n_n none l r)),
    StableHlo.binary main_v27 main_v29 main_v30 (addf) ]

abbrev sg3 : List (HloOp τ sig (Elt F)) :=
  [ StableHlo.nullary main_cst_4 (constant S_ .f32 0x00000000#32),
    StableHlo.binary main_v30 main_cst_4 main_v31 ((fun x v => Host.reduceAdd x v reducesTo_S50000x256_S256_d0 h_S_)),
    StableHlo.nullary main_cst_5 (constant S_ .f32 0x47435000#32),
    StableHlo.unary main_cst_5 main_v32 (broadcastInDim S256 ![] bcast_S_S256),
    StableHlo.binary main_v31 main_v32 main_v33 (Host.divf) ]

abbrev sg4 : List (HloOp τ sig (Elt F)) :=
  [ StableHlo.nullary main_c_6 (constantI S_ 32 0#32),
    StableHlo.TRef.nullary (.of main_call0_cst : StableHlo.TRef sig ⟨S_, .f32⟩) (constant S_ .f32 0x00000000#32),
    StableHlo.TRef.binary (.of main_v30 : StableHlo.TRef sig ⟨S50000x256, .f32⟩) (.of main_call0_cst : StableHlo.TRef sig ⟨S_, .f32⟩) (.of main_call0_v0 : StableHlo.TRef sig ⟨S256, .f32⟩) (fun x v => Host.reduceAdd x v reducesTo_S50000x256_S256_d0 h_S_),
    StableHlo.TRef.unary (.of main_call0_v0 : StableHlo.TRef sig ⟨S256, .f32⟩) (.of main_call0_v1 : StableHlo.TRef sig ⟨S1x256, .f32⟩) (broadcastInDim S1x256 ![1] bcast_S256_S1x256_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x256, .f32⟩) (broadcastInDim S1x256 ![] bcast_S_S1x256),
    StableHlo.TRef.binary (.of main_call0_v1 : StableHlo.TRef sig ⟨S1x256, .f32⟩) (.of main_call0_v2 : StableHlo.TRef sig ⟨S1x256, .f32⟩) (.of main_call0_v3 : StableHlo.TRef sig ⟨S1x256, .f32⟩) Host.divf,
    StableHlo.TRef.unary (.of main_call0_v3 : StableHlo.TRef sig ⟨S1x256, .f32⟩) (.of main_call0_v4 : StableHlo.TRef sig ⟨S50000x256, .f32⟩) (broadcastInDim S50000x256 ![0, 1] bcast_S1x256_S50000x256_0_1),
    StableHlo.TRef.binary (.of main_v30 : StableHlo.TRef sig ⟨S50000x256, .f32⟩) (.of main_call0_v4 : StableHlo.TRef sig ⟨S50000x256, .f32⟩) (.of main_call0_v5 : StableHlo.TRef sig ⟨S50000x256, .f32⟩) subf,
    StableHlo.TRef.binary (.of main_call0_v5 : StableHlo.TRef sig ⟨S50000x256, .f32⟩) (.of main_call0_v5 : StableHlo.TRef sig ⟨S50000x256, .f32⟩) (.of main_call0_v6 : StableHlo.TRef sig ⟨S50000x256, .f32⟩) mulf,
    StableHlo.TRef.unary (.of main_c_6 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x256, .f32⟩) (.of main_call0_cst_2 : StableHlo.TRef sig ⟨S_, .f32⟩) (.of main_call0_v9 : StableHlo.TRef sig ⟨S256, .f32⟩) (fun x v => Host.reduceAdd x v reducesTo_S50000x256_S256_d0 h_S_),
    StableHlo.TRef.unary (.of main_call0_v8 : StableHlo.TRef sig ⟨S_, .f32⟩) (.of main_call0_v10 : StableHlo.TRef sig ⟨S256, .f32⟩) (broadcastInDim S256 ![] bcast_S_S256),
    StableHlo.TRef.binary (.of main_call0_v9 : StableHlo.TRef sig ⟨S256, .f32⟩) (.of main_call0_v10 : StableHlo.TRef sig ⟨S256, .f32⟩) (.of main_call0_v11 : StableHlo.TRef sig ⟨S256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S256, .f32⟩) (broadcastInDim S256 ![] bcast_S_S256),
    StableHlo.TRef.ternary (.of main_call0_v12 : StableHlo.TRef sig ⟨S_, .i1⟩) (.of main_call0_v11 : StableHlo.TRef sig ⟨S256, .f32⟩) (.of main_call0_call0_v1 : StableHlo.TRef sig ⟨S256, .f32⟩) (.of main_v34 : StableHlo.TRef sig ⟨S256, .f32⟩) (fun p a b => select (broadcastInDim S256 ![] bcast_S_S256 p) a b) ]

abbrev sg5 : List (HloOp τ sig (Elt F)) :=
  [ StableHlo.unary main_v33 main_v35 (broadcastInDim S1x256 ![1] bcast_S256_S1x256_1),
    StableHlo.unary main_v35 main_v36 (broadcastInDim S50000x256 ![0, 1] bcast_S1x256_S50000x256_0_1),
    StableHlo.binary main_v30 main_v36 main_v37 (subf),
    StableHlo.nullary main_cst_7 (constant S_ .f32 0x3727C5AC#32),
    StableHlo.unary main_cst_7 main_v38 (broadcastInDim S256 ![] bcast_S_S256),
    StableHlo.binary main_v34 main_v38 main_v39 (addf),
    StableHlo.unary main_v39 main_v40 (Host.rsqrt),
    StableHlo.unary main_v40 main_v41 (broadcastInDim S1x256 ![1] bcast_S256_S1x256_1),
    StableHlo.unary main_v41 main_v42 (broadcastInDim S50000x256 ![0, 1] bcast_S1x256_S50000x256_0_1),
    StableHlo.binary main_v37 main_v42 main_v43 (mulf),
    StableHlo.unary main_arg6 main_v44 (broadcastInDim S1x256 ![1] bcast_S256_S1x256_1),
    StableHlo.unary main_v44 main_v45 (broadcastInDim S50000x256 ![0, 1] bcast_S1x256_S50000x256_0_1),
    StableHlo.binary main_v43 main_v45 main_v46 (mulf),
    StableHlo.unary main_arg7 main_v47 (broadcastInDim S1x256 ![1] bcast_S256_S1x256_1),
    StableHlo.unary main_v47 main_v48 (broadcastInDim S50000x256 ![0, 1] bcast_S1x256_S50000x256_0_1),
    StableHlo.binary main_v46 main_v48 main_v49 (addf) ]

abbrev sg6 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v49 : StableHlo.TRef sig ⟨S50000x256, .f32⟩) (.of main_call1_v0 : StableHlo.TRef sig ⟨S50000x256, .f32⟩) (.of main_v50 : StableHlo.TRef sig ⟨S50000x256, .f32⟩) maximumf ]

abbrev sg7 : List (HloOp τ sig (Elt F)) :=
  [ StableHlo.nullary main_c_8 (constantI S_ 32 0#32),
    StableHlo.unary main_c_8 main_v51 (broadcastInDim S800000 ![] bcast_S_S800000),
    StableHlo.binary main_v1 main_v51 main_v52 (cmpi .slt),
    StableHlo.nullary main_c_9 (constantI S_ 32 50000#32),
    StableHlo.unary main_c_9 main_v53 (broadcastInDim S800000 ![] bcast_S_S800000),
    StableHlo.binary main_v1 main_v53 main_v54 (addi),
    StableHlo.ternary main_v52 main_v54 main_v1 main_v55 (select),
    StableHlo.unary main_v55 main_v56 (broadcastInDim S800000x1 ![0] bcast_S800000_S800000x1_0),
    StableHlo.binary main_v50 main_v56 main_v57 ((fun x i => Host.gather gather_S50000x256_S800000x1_S800000x256_1_0_n_n_0_1_1256 x i)),
    StableHlo.nullary main_cst_10 (constant S_ .f32 0x3F800000#32),
    StableHlo.unary main_cst_10 main_v58 (broadcastInDim S800000 ![] bcast_S_S800000),
    StableHlo.nullary main_cst_11 (constant S_ .f32 0x00000000#32),
    StableHlo.unary main_cst_11 main_v59 (broadcastInDim S50000 ![] bcast_S_S50000),
    StableHlo.unary main_v3 main_v60 (broadcastInDim S800000x1 ![0] bcast_S800000_S800000x1_0),
    StableHlo.ternary main_v59 main_v60 main_v58 main_v61 ((fun x i u => Host.scatterAdd scatter_S50000_S800000x1_S800000_n_0_0_1 x i u)),
    StableHlo.nullary main_cst_12 (constant S_ .f32 0x00000000#32),
    StableHlo.unary main_cst_12 main_v62 (broadcastInDim S50000x256 ![] bcast_S_S50000x256),
    StableHlo.unary main_v3 main_v63 (broadcastInDim S800000x1 ![0] bcast_S800000_S800000x1_0),
    StableHlo.ternary main_v62 main_v63 main_v57 main_v64 ((fun x i u => Host.scatterAdd scatter_S50000x256_S800000x1_S800000x256_1_0_0_1 x i u)),
    StableHlo.nullary main_cst_13 (constant S_ .f32 0x3F800000#32),
    StableHlo.unary main_cst_13 main_v65 (broadcastInDim S50000 ![] bcast_S_S50000),
    StableHlo.binary main_v61 main_v65 main_v66 (maximumf),
    StableHlo.unary main_v66 main_v67 (broadcastInDim S50000x1 ![0] bcast_S50000_S50000x1_0),
    StableHlo.unary main_v67 main_v68 (broadcastInDim S50000x256 ![0, 1] bcast_S50000x1_S50000x256_0_1),
    StableHlo.binary main_v64 main_v68 main_v69 (Host.divf) ]

abbrev sg8 : List (HloOp τ sig (Elt F)) :=
  [ StableHlo.unary main_arg8 main_v70 ((transpose S256x128 [1, 0] · transposes_S128x256_S256x128_1_0)),
    StableHlo.binary main_v69 main_v70 main_v71 ((fun l r => Host.dotGeneral dot_S50000x256_S256x128_S50000x128_1_0_0_1_n_n none l r)),
    StableHlo.unary main_arg9 main_v72 (broadcastInDim S1x128 ![1] bcast_S128_S1x128_1),
    StableHlo.unary main_v72 main_v73 (broadcastInDim S50000x128 ![0, 1] bcast_S1x128_S50000x128_0_1),
    StableHlo.binary main_v71 main_v73 main_v74 (addf),
    StableHlo.unary main_arg10 main_v75 ((transpose S256x128 [1, 0] · transposes_S128x256_S256x128_1_0)),
    StableHlo.binary main_v50 main_v75 main_v76 ((fun l r => Host.dotGeneral dot_S50000x256_S256x128_S50000x128_1_0_0_1_n_n none l r)),
    StableHlo.binary main_v74 main_v76 main_v77 (addf) ]

abbrev sg9 : List (HloOp τ sig (Elt F)) :=
  [ StableHlo.nullary main_cst_14 (constant S_ .f32 0x00000000#32),
    StableHlo.binary main_v77 main_cst_14 main_v78 ((fun x v => Host.reduceAdd x v reducesTo_S50000x128_S128_d0 h_S_)),
    StableHlo.nullary main_cst_15 (constant S_ .f32 0x47435000#32),
    StableHlo.unary main_cst_15 main_v79 (broadcastInDim S128 ![] bcast_S_S128),
    StableHlo.binary main_v78 main_v79 main_v80 (Host.divf) ]

abbrev sg10 : List (HloOp τ sig (Elt F)) :=
  [ StableHlo.nullary main_c_16 (constantI S_ 32 0#32),
    StableHlo.TRef.nullary (.of main_call2_cst : StableHlo.TRef sig ⟨S_, .f32⟩) (constant S_ .f32 0x00000000#32),
    StableHlo.TRef.binary (.of main_v77 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1),
    StableHlo.TRef.binary (.of main_v77 : StableHlo.TRef sig ⟨S50000x128, .f32⟩) (.of main_call2_v4 : StableHlo.TRef sig ⟨S50000x128, .f32⟩) (.of main_call2_v5 : StableHlo.TRef sig ⟨S50000x128, .f32⟩) subf,
    StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v81 : StableHlo.TRef sig ⟨S128, .f32⟩) (fun p a b => select (broadcastInDim S128 ![] bcast_S_S128 p) a b) ]

abbrev sg11 : List (HloOp τ sig (Elt F)) :=
  [ StableHlo.unary main_v80 main_v82 (broadcastInDim S1x128 ![1] bcast_S128_S1x128_1),
    StableHlo.unary main_v82 main_v83 (broadcastInDim S50000x128 ![0, 1] bcast_S1x128_S50000x128_0_1),
    StableHlo.binary main_v77 main_v83 main_v84 (subf),
    StableHlo.nullary main_cst_17 (constant S_ .f32 0x3727C5AC#32),
    StableHlo.unary main_cst_17 main_v85 (broadcastInDim S128 ![] bcast_S_S128),
    StableHlo.binary main_v81 main_v85 main_v86 (addf),
    StableHlo.unary main_v86 main_v87 (Host.rsqrt),
    StableHlo.unary main_v87 main_v88 (broadcastInDim S1x128 ![1] bcast_S128_S1x128_1),
    StableHlo.unary main_v88 main_v89 (broadcastInDim S50000x128 ![0, 1] bcast_S1x128_S50000x128_0_1),
    StableHlo.binary main_v84 main_v89 main_v90 (mulf),
    StableHlo.unary main_arg11 main_v91 (broadcastInDim S1x128 ![1] bcast_S128_S1x128_1),
    StableHlo.unary main_v91 main_v92 (broadcastInDim S50000x128 ![0, 1] bcast_S1x128_S50000x128_0_1),
    StableHlo.binary main_v90 main_v92 main_v93 (mulf),
    StableHlo.unary main_arg12 main_v94 (broadcastInDim S1x128 ![1] bcast_S128_S1x128_1),
    StableHlo.unary main_v94 main_v95 (broadcastInDim S50000x128 ![0, 1] bcast_S1x128_S50000x128_0_1),
    StableHlo.binary main_v93 main_v95 main_v96 (addf),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v96 : StableHlo.TRef sig ⟨S50000x128, .f32⟩) (.of main_call3_v0 : StableHlo.TRef sig ⟨S50000x128, .f32⟩) (.of main_v97 : StableHlo.TRef sig ⟨S50000x128, .f32⟩) maximumf ]

abbrev sg12 : List (HloOp τ sig (Elt F)) :=
  [ StableHlo.nullary main_cst_18 (constant S_ .f32 0x3F800000#32),
    StableHlo.unary main_cst_18 main_v98 (broadcastInDim S50000 ![] bcast_S_S50000) ]

abbrev sg13 : List (HloOp τ sig (Elt F)) :=
  [ StableHlo.nullary main_cst_19 (constant S_ .f32 0x00000000#32),
    StableHlo.unary main_cst_19 main_v99 (broadcastInDim S64 ![] bcast_S_S64),
    StableHlo.unary main_arg2 main_v100 (broadcastInDim S50000x1 ![0] bcast_S50000_S50000x1_0),
    StableHlo.ternary main_v99 main_v100 main_v98 main_v101 ((fun x i u => Host.scatterAdd scatter_S64_S50000x1_S50000_n_0_0_1 x i u)),
    StableHlo.nullary main_cst_20 (constant S_ .f32 0x00000000#32),
    StableHlo.unary main_cst_20 main_v102 (broadcastInDim S64x128 ![] bcast_S_S64x128),
    StableHlo.unary main_arg2 main_v103 (broadcastInDim S50000x1 ![0] bcast_S50000_S50000x1_0),
    StableHlo.ternary main_v102 main_v103 main_v97 main_v104 ((fun x i u => Host.scatterAdd scatter_S64x128_S50000x1_S50000x128_1_0_0_1 x i u)),
    StableHlo.nullary main_cst_21 (constant S_ .f32 0x3F800000#32),
    StableHlo.unary main_cst_21 main_v105 (broadcastInDim S64 ![] bcast_S_S64),
    StableHlo.binary main_v101 main_v105 main_v106 (maximumf),
    StableHlo.unary main_v106 main_v107 (broadcastInDim S64x1 ![0] bcast_S64_S64x1_0),
    StableHlo.unary main_v107 main_v108 (broadcastInDim S64x128 ![0, 1] bcast_S64x1_S64x128_0_1),
    StableHlo.binary main_v104 main_v108 main_v109 (Host.divf) ]

abbrev sg14 : List (HloOp τ sig (Elt F)) :=
  [ StableHlo.unary main_arg13 main_v110 ((transpose S128x128 [1, 0] · transposes_S128x128_S128x128_1_0)),
    StableHlo.binary main_v109 main_v110 main_v111 ((fun l r => Host.dotGeneral dot_S64x128_S128x128_S64x128_1_0_0_1_n_n none l r)),
    StableHlo.unary main_arg14 main_v112 (broadcastInDim S1x128 ![1] bcast_S128_S1x128_1),
    StableHlo.unary main_v112 main_v113 (broadcastInDim S64x128 ![0, 1] bcast_S1x128_S64x128_0_1),
    StableHlo.binary main_v111 main_v113 main_v114 (addf),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S64x128, .f32⟩) (broadcastInDim S64x128 ![] bcast_S_S64x128),
    StableHlo.TRef.binary (.of main_v114 : StableHlo.TRef sig ⟨S64x128, .f32⟩) (.of main_call4_v0 : StableHlo.TRef sig ⟨S64x128, .f32⟩) (.of main_v115 : StableHlo.TRef sig ⟨S64x128, .f32⟩) maximumf,
    StableHlo.unary main_arg15 main_v116 ((transpose S128x2 [1, 0] · transposes_S2x128_S128x2_1_0)),
    StableHlo.binary main_v115 main_v116 main_v117 ((fun l r => Host.dotGeneral dot_S64x128_S128x2_S64x2_1_0_0_1_n_n none l r)),
    StableHlo.unary main_arg16 main_v118 (broadcastInDim S1x2 ![1] bcast_S2_S1x2_1),
    StableHlo.unary main_v118 main_v119 (broadcastInDim S64x2 ![0, 1] bcast_S1x2_S64x2_0_1),
    StableHlo.binary main_v117 main_v119 main_v120 (addf) ]

def opsP0 : List (HloOp τ sig (Elt F)) := sg1 ++ (sg2 ++ (sg3 ++ (sg4 ++ sg5)))
def opsP1 : List (HloOp τ sig (Elt F)) := sg6 ++ (sg7 ++ (sg8 ++ (sg9 ++ (sg10 ++ (sg11 ++ sg12)))))
def opsP2 : List (HloOp τ sig (Elt F)) := sg13 ++ sg14
def ops : List (HloOp τ sig (Elt F)) := opsP0 ++ (opsP1 ++ opsP2)

theorem main_part0_eq (c : Dev nD) : main_part0 (F := F) c = seq opsP0 := rfl
theorem main_part1_eq (c : Dev nD) : main_part1 (F := F) c = seq opsP1 := rfl
theorem main_part2_eq (c : Dev nD) : main_part2 (F := F) c = seq opsP2 := rfl
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsP0, opsP1, opsP2, sg1, sg2, sg3, sg4, sg5, sg6, sg7, sg8, sg9, sg10, sg11, sg12, sg13, sg14, List.cons_append, List.nil_append, List.Forall, nullary_bufs_sub, unary_bufs_sub, binary_bufs_sub, ternary_bufs_sub, reshape_bufs_sub, and_self]
theorem ops_fresh : ∀ op ∈ (ops : List (HloOp τ sig (Elt F))), op.fresh = ∅ := by
  refine List.forall_iff_forall_mem.mp ?_
  simp only [ops, opsP0, opsP1, opsP2, sg1, sg2, sg3, sg4, sg5, sg6, sg7, sg8, sg9, sg10, sg11, sg12, sg13, sg14, List.cons_append, List.nil_append, List.Forall]
  repeat' constructor

variable (V : Valuation τ sig (Elt Ideal))

/-- A stretch changes only the buffers it writes: any other buffer reads the same after it as before. -/
abbrev sg1_W : List (Ref sig .tc) := [main_v0, main_v1, main_v2, main_v3, main_c, main_v4, main_v5, main_c_0, main_v6, main_v7, main_v8, main_v9, main_v10, main_cst, main_v11, main_cst_1, main_v12, main_v13, main_v14, main_cst_2, main_v15, main_v16, main_v17, main_cst_3, main_v18, main_v19, main_v20, main_v21, main_v22]
theorem keep1 {r : Ref sig .tc} (h : r ∉ sg1_W) : after sg1 V (no_index (Proc.devRef .tc r)) = V (Proc.devRef .tc r) :=
  after_of_writes_sub sg1 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg2_W : List (Ref sig .tc) := [main_v23, main_v24, main_v25, main_v26, main_v27, main_v28, main_v29, main_v30]
theorem keep2 {r : Ref sig .tc} (h : r ∉ sg2_W) : after sg2 V (no_index (Proc.devRef .tc r)) = V (Proc.devRef .tc r) :=
  after_of_writes_sub sg2 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg3_W : List (Ref sig .tc) := [main_cst_4, main_v31, main_cst_5, main_v32, main_v33]
theorem keep3 {r : Ref sig .tc} (h : r ∉ sg3_W) : after sg3 V (no_index (Proc.devRef .tc r)) = V (Proc.devRef .tc r) :=
  after_of_writes_sub sg3 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg4_W : List (Ref sig .tc) := [main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v34]
theorem keep4 {r : Ref sig .tc} (h : r ∉ sg4_W) : after sg4 V (no_index (Proc.devRef .tc r)) = V (Proc.devRef .tc r) :=
  after_of_writes_sub sg4 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg5_W : List (Ref sig .tc) := [main_v35, main_v36, main_v37, main_cst_7, main_v38, main_v39, main_v40, main_v41, main_v42, main_v43, main_v44, main_v45, main_v46, main_v47, main_v48, main_v49]
theorem keep5 {r : Ref sig .tc} (h : r ∉ sg5_W) : after sg5 V (no_index (Proc.devRef .tc r)) = V (Proc.devRef .tc r) :=
  after_of_writes_sub sg5 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg6_W : List (Ref sig .tc) := [main_call1_cst, main_call1_v0, main_v50]
theorem keep6 {r : Ref sig .tc} (h : r ∉ sg6_W) : after sg6 V (no_index (Proc.devRef .tc r)) = V (Proc.devRef .tc r) :=
  after_of_writes_sub sg6 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg7_W : List (Ref sig .tc) := [main_c_8, main_v51, main_v52, main_c_9, main_v53, main_v54, main_v55, main_v56, main_v57, main_cst_10, main_v58, main_cst_11, main_v59, main_v60, main_v61, main_cst_12, main_v62, main_v63, main_v64, main_cst_13, main_v65, main_v66, main_v67, main_v68, main_v69]
theorem keep7 {r : Ref sig .tc} (h : r ∉ sg7_W) : after sg7 V (no_index (Proc.devRef .tc r)) = V (Proc.devRef .tc r) :=
  after_of_writes_sub sg7 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg8_W : List (Ref sig .tc) := [main_v70, main_v71, main_v72, main_v73, main_v74, main_v75, main_v76, main_v77]
theorem keep8 {r : Ref sig .tc} (h : r ∉ sg8_W) : after sg8 V (no_index (Proc.devRef .tc r)) = V (Proc.devRef .tc r) :=
  after_of_writes_sub sg8 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg9_W : List (Ref sig .tc) := [main_cst_14, main_v78, main_cst_15, main_v79, main_v80]
theorem keep9 {r : Ref sig .tc} (h : r ∉ sg9_W) : after sg9 V (no_index (Proc.devRef .tc r)) = V (Proc.devRef .tc r) :=
  after_of_writes_sub sg9 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg10_W : List (Ref sig .tc) := [main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v81]
theorem keep10 {r : Ref sig .tc} (h : r ∉ sg10_W) : after sg10 V (no_index (Proc.devRef .tc r)) = V (Proc.devRef .tc r) :=
  after_of_writes_sub sg10 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg11_W : List (Ref sig .tc) := [main_v82, main_v83, main_v84, main_cst_17, main_v85, main_v86, main_v87, main_v88, main_v89, main_v90, main_v91, main_v92, main_v93, main_v94, main_v95, main_v96, main_call3_cst, main_call3_v0, main_v97]
theorem keep11 {r : Ref sig .tc} (h : r ∉ sg11_W) : after sg11 V (no_index (Proc.devRef .tc r)) = V (Proc.devRef .tc r) :=
  after_of_writes_sub sg11 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg12_W : List (Ref sig .tc) := [main_cst_18, main_v98]
theorem keep12 {r : Ref sig .tc} (h : r ∉ sg12_W) : after sg12 V (no_index (Proc.devRef .tc r)) = V (Proc.devRef .tc r) :=
  after_of_writes_sub sg12 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg13_W : List (Ref sig .tc) := [main_cst_19, main_v99, main_v100, main_v101, main_cst_20, main_v102, main_v103, main_v104, main_cst_21, main_v105, main_v106, main_v107, main_v108, main_v109]
theorem keep13 {r : Ref sig .tc} (h : r ∉ sg13_W) : after sg13 V (no_index (Proc.devRef .tc r)) = V (Proc.devRef .tc r) :=
  after_of_writes_sub sg13 V (by
    simp only [List.Forall, nullary_writes, unary_writes, binary_writes, ternary_writes, reshape_writes, Finset.singleton_subset_iff, List.mem_toFinset]
    repeat' refine And.intro ?_ ?_
    all_goals exact List.mem_map_of_mem (by decide)) h
abbrev sg14_W : List (Ref sig .tc) := [main_v110, main_v111, main_v112, main_v113, main_v114, main_call4_cst, main_call4_v0, main_v115, main_v116, main_v117, main_v118, main_v119, main_v120]
theorem keep14 {r : Ref sig .tc} (h : r ∉ sg14_W) : after sg14 V (no_index (Proc.devRef .tc r)) = V (Proc.devRef .tc r) :=
  after_of_writes_sub sg14 V (by
    simp only [List.Forall, nullary_writes, unary_writes, binary_writes, ternary_writes, reshape_writes, Finset.singleton_subset_iff, List.mem_toFinset]
    repeat' refine And.intro ?_ ?_
    all_goals exact List.mem_map_of_mem (by decide)) h

/-- Each stretch's result, as the named term of the buffers the stretch reads, whatever else memory holds. -/
theorem sg1_v1 : after sg1 V (no_index (Proc.devRef .tc main_v1)) = RC.srcRow (V (Proc.devRef .tc main_arg1)) := by
  simp only [sg1]
  after_results_simp
  simp only [TRef.ofBuf, TRef.toBuf, cast_eq, id_eq, RC.srcRow]
  rfl
theorem sg1_v3 : after sg1 V (no_index (Proc.devRef .tc main_v3)) = RC.dstRow (V (Proc.devRef .tc main_arg1)) := by
  simp only [sg1]
  after_results_simp
  simp only [TRef.ofBuf, TRef.toBuf, cast_eq, id_eq, RC.dstRow]
  rfl
theorem sg1_v22 : after sg1 V (no_index (Proc.devRef .tc main_v22)) = RC.agg0 (V (Proc.devRef .tc main_arg0)) (V (Proc.devRef .tc main_arg1)) := by
  simp only [sg1]
  after_results_simp
  simp only [TRef.ofBuf, TRef.toBuf, cast_eq, id_eq, RC.agg0, RC.mdeg, RC.dstIdx, RC.srcIdx, RC.dstRow, RC.srcRow]
  rfl
theorem sg2_v30 : after sg2 V (no_index (Proc.devRef .tc main_v30)) = RC.hpre0 (V (Proc.devRef .tc main_v22)) (V (Proc.devRef .tc main_arg0)) (V (Proc.devRef .tc main_arg3)) (V (Proc.devRef .tc main_arg4)) (V (Proc.devRef .tc main_arg5)) := by
  simp only [sg2]
  after_results_simp
  simp only [TRef.ofBuf, TRef.toBuf, cast_eq, id_eq, RC.hpre0]
theorem sg3_v33 : after sg3 V (no_index (Proc.devRef .tc main_v33)) = RC.mean0 (V (Proc.devRef .tc main_v30)) := by
  simp only [sg3]
  after_results_simp
  simp only [TRef.ofBuf, TRef.toBuf, cast_eq, id_eq, RC.mean0]
theorem sg4_v34 : after sg4 V (no_index (Proc.devRef .tc main_v34)) = RC.var0 (V (Proc.devRef .tc main_v30)) := by
  simp only [sg4]
  after_results_simp
  simp only [TRef.ofBuf, TRef.toBuf, cast_eq, id_eq, RC.var0, RC.dev0, RC.cnt]
theorem sg6_v50 : after sg6 (after sg5 V) (no_index (Proc.devRef .tc main_v50)) = RC.act0 (V (Proc.devRef .tc main_v30)) (V (Proc.devRef .tc main_v33)) (V (Proc.devRef .tc main_v34)) (V (Proc.devRef .tc main_arg6)) (V (Proc.devRef .tc main_arg7)) := by
  simp only [sg5, sg6]
  after_results_simp
  simp only [TRef.ofBuf, TRef.toBuf, cast_eq, id_eq, RC.act0]
/-- Layer 1's aggregation uses the same source and destination rows as layer 0's. -/
theorem sg7_v69 (ei : IVec S2x800000 32) (h1 : V (Proc.devRef .tc main_v1) = RC.srcRow ei) (h3 : V (Proc.devRef .tc main_v3) = RC.dstRow ei) :
    after sg7 V (Proc.devRef .tc main_v69) = RC.agg1 (V (Proc.devRef .tc main_v50)) ei := by
  simp only [sg7]
  after_results_simp
  simp only [TRef.ofBuf, TRef.toBuf, cast_eq, id_eq, h1, h3, RC.agg1, RC.mdeg, RC.dstIdx, RC.srcIdx]
theorem sg8_v77 : after sg8 V (no_index (Proc.devRef .tc main_v77)) = RC.hpre1 (V (Proc.devRef .tc main_v69)) (V (Proc.devRef .tc main_v50)) (V (Proc.devRef .tc main_arg8)) (V (Proc.devRef .tc main_arg9)) (V (Proc.devRef .tc main_arg10)) := by
  simp only [sg8]
  after_results_simp
  simp only [TRef.ofBuf, TRef.toBuf, cast_eq, id_eq, RC.hpre1]
theorem sg9_v80 : after sg9 V (no_index (Proc.devRef .tc main_v80)) = RC.mean1 (V (Proc.devRef .tc main_v77)) := by
  simp only [sg9]
  after_results_simp
  simp only [TRef.ofBuf, TRef.toBuf, cast_eq, id_eq, RC.mean1]
theorem sg10_v81 : after sg10 V (no_index (Proc.devRef .tc main_v81)) = RC.var1 (V (Proc.devRef .tc main_v77)) := by
  simp only [sg10]
  after_results_simp
  simp only [TRef.ofBuf, TRef.toBuf, cast_eq, id_eq, RC.var1, RC.dev1, RC.cnt]
theorem sg11_v97 : after sg11 V (no_index (Proc.devRef .tc main_v97)) = RC.act1 (V (Proc.devRef .tc main_v77)) (V (Proc.devRef .tc main_v80)) (V (Proc.devRef .tc main_v81)) (V (Proc.devRef .tc main_arg11)) (V (Proc.devRef .tc main_arg12)) := by
  simp only [sg11]
  after_results_simp
  simp only [TRef.ofBuf, TRef.toBuf, cast_eq, id_eq, RC.act1]
theorem sg13_v109 : after sg13 (after sg12 V) (no_index (Proc.devRef .tc main_v109)) = RC.emb (V (Proc.devRef .tc main_v97)) (V (Proc.devRef .tc main_arg2)) := by
  simp only [sg12, sg13]
  after_results_simp
  simp only [TRef.ofBuf, TRef.toBuf, cast_eq, id_eq, RC.emb, RC.mcnt]
theorem sg14_v120 : after sg14 V (no_index (Proc.devRef .tc main_v120)) = RC.tail (V (Proc.devRef .tc main_v109)) (V (Proc.devRef .tc main_arg13)) (V (Proc.devRef .tc main_arg14)) (V (Proc.devRef .tc main_arg15)) (V (Proc.devRef .tc main_arg16)) := by
  simp only [sg14]
  after_results_simp
  simp only [TRef.ofBuf, TRef.toBuf, cast_eq, id_eq, RC.tail]

variable (V0 : Valuation τ sig (Elt Ideal))

/-- The fourteen stretches composed: each stretch's result is its term of what it reads, and a buffer a stretch
    does not write passes through it. -/
theorem results :
    after ops V0 (Proc.devRef .tc main_v120) = RC.logitsOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))
    ∧ after ops V0 (Proc.devRef .tc main_v109) = RC.embOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  have h7 := sg7_v69 (after sg6 (after sg5 (after sg4 (after sg3 (after sg2 (after sg1 V0)))))) (V0 (Proc.devRef .tc main_arg1))
    (by simp (disch := decide) only [keep6, keep5, keep4, keep3, keep2, sg1_v1]) (by simp (disch := decide) only [keep6, keep5, keep4, keep3, keep2, sg1_v3])
  simp (disch := decide) only [ops, opsP0, opsP1, opsP2, after_append, h7, sg14_v120, sg13_v109, sg11_v97, sg10_v81, sg9_v80, sg8_v77, sg6_v50, sg4_v34, sg3_v33, sg2_v30, sg1_v22,
    keep1, keep2, keep3, keep4, keep5, keep6, keep7, keep8, keep9, keep10, keep11, keep12, keep13, keep14, RC.logitsOf, RC.embOf, RC.h1Of, RC.y0Of, RC.h0Of, and_self]

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v120) = RC.logitsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v109) = RC.embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run (defs (F := Ideal)) _ _).mono (fun _ h c => by
      simp only [h c]
      refine ⟨(results _).1, (results _).2, ?_⟩
      simp (disch := decide) only [ops, opsP0, opsP1, opsP2, after_append, keep1, keep2, keep3, keep4, keep5, keep6, keep7, keep8, keep9, keep10, keep11, keep12, keep13, keep14, launchContents, and_self])
    (run_seq scopedRefs_eq scopedSems_eq (defs (F := Ideal)) (main (F := Ideal)) (fun _ => ops) main_eq (fun _ => ops_sub) m ρ (fun _ => ops_fresh))

end Cert.ReferenceIdeal.RefRun

end
-- ==== Proof.lean ====
import proofs.«408482_j65996467470993_2_alg».proof.Defs
import proofs.«408482_j65996467470993_2_alg».proof.Proof.Gen.Kernel
import proofs.«408482_j65996467470993_2_alg».proof.Proof.Gen.Kernel.Frame
import proofs.«408482_j65996467470993_2_alg».proof.Proof.Gen.KernelIdeal
import proofs.«408482_j65996467470993_2_alg».proof.Proof.Gen.KernelIdeal.Frame
import proofs.«408482_j65996467470993_2_alg».proof.Proof.Gen.ReferenceIdeal
import proofs.«408482_j65996467470993_2_alg».proof.Proof.Gen.Pre_finite_inputs
import proofs.«408482_j65996467470993_2_alg».proof.Proof.KRun
import proofs.«408482_j65996467470993_2_alg».proof.Proof.Final
import proofs.«408482_j65996467470993_2_alg».proof.Proof.Finite
import proofs.«408482_j65996467470993_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefRun.run m ρ)

theorem algebraic : Cert.algebraic_KernelIdeal_ReferenceIdeal := by
  intro m ρ m' ρ' hpre hagree
  apply Exists.intro
  apply Exists.intro
  refine ⟨?_, ?_⟩
  · refine (θ_run Cert.KernelIdeal.defs _ _).mono (fun r h c => ?_) (Cert.KernelIdeal.Gen.run_results (F := Ideal) m ρ)
    obtain ⟨r0, r3, r4, r5, r6, r7, r8, r9, r10, r11, r12, r13, r14, r15, r16⟩ := Cert.KernelIdeal.Finite.real_args m hpre c
    obtain ⟨e93, e82⟩ := Cert.Final.values m ρ c r0 r3 r4 r5 r6 r7 r8 r9 r10 r11 r12
    exact ⟨(h c).1.trans e93, (h c).2.1.trans e82, (h c).2.2⟩
  · refine (θ_run Cert.ReferenceIdeal.defs _ _).mono (fun r h c => ?_) (Cert.ReferenceIdeal.RefRun.run m' ρ')
    obtain ⟨a0, a1, a2, a3, a4, a5, a6, a7, a8, a9, a10, a11, a12, a13, a14, a15, a16⟩ := hagree c
    refine ⟨(h c).1.trans ?_, (h c).2.1.trans ?_, (h c).2.2⟩
    · rw [a0, a1, a2, a3, a4, a5, a6, a7, a8, a9, a10, a11, a12, a13, a14, a15, a16]
    · rw [a0, a1, a2, a3, a4, a5, a6, a7, a8, a9, a10, a11, a12, a13, a14, a15, a16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
